-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v80)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v159) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S100000 : S_.BroadcastsInDim S100000 (![] : Fin 0 → Fin S100000.rank)
  reducesTo_S100000_S_d0 : S100000.ReducesTo [0] S_

variable [Facts]

def fn_part6 {F : FTy → Type} [FloatOps F] (main_v95 : IVec S_ 1) (main_v101 : IVec S_ 1) : IVec S_ 1 :=
  let main_v102 : IVec S_ 1 := andi main_v95 main_v101
  main_v102

def fn_part5 {F : FTy → Type} [FloatOps F] (main_arg4 : IVec S100000 32) (main_arg5 : IVec S100000 32) (main_v83 : IVec S_ 1) (main_v84 : FVec F S128x64 .f32) (main_cst_32 : FVec F S_ .f32) : IVec S_ 1 :=
  let main_v85 : FVec F S128x64 .f32 := broadcastInDim S128x64 ![] bcast_S_S128x64 main_cst_32
  let main_v86 : IVec S128x64 1 := cmpf .olt main_v84 main_v85
  let main_c_33 : IVec S_ 1 := constantI S_ 1 1#1
  let main_v87 : IVec S_ 1 := (fun x v => Host.reduce IntOp.andi x v reducesTo_S128x64_S_d0_1 h_S_) main_v86 main_c_33
  let main_v88 : IVec S_ 1 := andi main_v83 main_v87
  let main_c_34 : IVec S_ 32 := constantI S_ 32 0#32
  let main_v89 : IVec S100000 32 := broadcastInDim S100000 ![] bcast_S_S100000 main_c_34
  let main_v90 : IVec S100000 1 := cmpi .sge main_arg4 main_v89
  let main_c_35 : IVec S_ 32 := constantI S_ 32 100000#32
  let main_v91 : IVec S100000 32 := broadcastInDim S100000 ![] bcast_S_S100000 main_c_35
  let main_v92 : IVec S100000 1 := cmpi .slt main_arg4 main_v91
  let main_v93 : IVec S100000 1 := andi main_v90 main_v92
  let main_c_36 : IVec S_ 1 := constantI S_ 1 1#1
  let main_v94 : IVec S_ 1 := (fun x v => Host.reduce IntOp.andi x v reducesTo_S100000_S_d0 h_S_) main_v93 main_c_36
  let main_v95 : IVec S_ 1 := andi main_v88 main_v94
  let main_c_37 : IVec S_ 32 := constantI S_ 32 0#32
  let main_v96 : IVec S100000 32 := broadcastInDim S100000 ![] bcast_S_S100000 main_c_37
  let main_v97 : IVec S100000 1 := cmpi .sge main_arg5 main_v96
  let main_c_38 : IVec S_ 32 := constantI S_ 32 128#32
  let main_v98 : IVec S100000 32 := broadcastInDim S100000 ![] bcast_S_S100000 main_c_38
  let main_v99 : IVec S100000 1 := cmpi .slt main_arg5 main_v98
  let main_v100 : IVec S100000 1 := andi main_v97 main_v99
  let main_c_39 : IVec S_ 1 := constantI S_ 1 1#1
  let main_v101 : IVec S_ 1 := (fun x v => Host.reduce IntOp.andi x v reducesTo_S100000_S_d0 h_S_) main_v100 main_c_39
  fn_part6 (F := F) main_v95 main_v101

def fn_part4 {F : FTy → Type} [FloatOps F] (main_arg4 : IVec S100000 32) (main_arg5 : IVec S100000 32) (main_arg18 : FVec F S128x64 .f32) (main_arg19 : FVec F S128x64 .f32) (main_arg20 : FVec F S64 .f32) (main_arg21 : FVec F S128x64 .f32) (main_v63 : IVec S_ 1) (main_v67 : IVec S_ 1) : IVec S_ 1 :=
  let main_v68 : IVec S_ 1 := andi main_v63 main_v67
  let main_v69 : FVec F S128x64 .f32 := Host.absf main_arg18
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S128x64 .f32 := Host.absf main_arg19
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg20
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S128x64 .f32 := Host.absf main_arg21
  let main_cst_32 : FVec F S_ .f32 := constant S_ .f32 0x7F800000#32
  fn_part5 (F := F) main_arg4 main_arg5 main_v83 main_v84 main_cst_32

def fn_part3 {F : FTy → Type} [FloatOps F] (main_arg4 : IVec S100000 32) (main_arg5 : IVec S100000 32) (main_arg15 : FVec F S64 .f32) (main_arg16 : FVec F S128x64 .f32) (main_arg17 : FVec F S64 .f32) (main_arg18 : FVec F S128x64 .f32) (main_arg19 : FVec F S128x64 .f32) (main_arg20 : FVec F S64 .f32) (main_arg21 : FVec F S128x64 .f32) (main_v48 : IVec S_ 1) (main_v49 : FVec F S128x64 .f32) (main_v50 : FVec F S128x64 .f32) : IVec S_ 1 :=
  let main_v51 : IVec S128x64 1 := cmpf .olt main_v49 main_v50
  let main_c_19 : IVec S_ 1 := constantI S_ 1 1#1
  let main_v52 : IVec S_ 1 := (fun x v => Host.reduce IntOp.andi x v reducesTo_S128x64_S_d0_1 h_S_) main_v51 main_c_19
  let main_v53 : IVec S_ 1 := andi main_v48 main_v52
  let main_v54 : FVec F S64 .f32 := Host.absf main_arg15
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S128x64 .f32 := Host.absf main_arg16
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg17
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg4 main_arg5 main_arg18 main_arg19 main_arg20 main_arg21 main_v63 main_v67

def fn_part2 {F : FTy → Type} [FloatOps F] (main_arg4 : IVec S100000 32) (main_arg5 : IVec S100000 32) (main_arg11 : FVec F S128x128 .f32) (main_arg12 : FVec F S128 .f32) (main_arg13 : FVec F S128x128 .f32) (main_arg14 : FVec F S128x64 .f32) (main_arg15 : FVec F S64 .f32) (main_arg16 : FVec F S128x64 .f32) (main_arg17 : FVec F S64 .f32) (main_arg18 : FVec F S128x64 .f32) (main_arg19 : FVec F S128x64 .f32) (main_arg20 : FVec F S64 .f32) (main_arg21 : FVec F S128x64 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x64 .f32 := Host.absf main_arg14
  let main_cst_18 : FVec F S_ .f32 := constant S_ .f32 0x7F800000#32
  let main_v50 : FVec F S128x64 .f32 := broadcastInDim S128x64 ![] bcast_S_S128x64 main_cst_18
  fn_part3 (F := F) main_arg4 main_arg5 main_arg15 main_arg16 main_arg17 main_arg18 main_arg19 main_arg20 main_arg21 main_v48 main_v49 main_v50

def fn_part1 {F : FTy → Type} [FloatOps F] (main_arg4 : IVec S100000 32) (main_arg5 : IVec S100000 32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x64 .f32) (main_arg15 : FVec F S64 .f32) (main_arg16 : FVec F S128x64 .f32) (main_arg17 : FVec F S64 .f32) (main_arg18 : FVec F S128x64 .f32) (main_arg19 : FVec F S128x64 .f32) (main_arg20 : FVec F S64 .f32) (main_arg21 : FVec F S128x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg9
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg10
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg4 main_arg5 main_arg11 main_arg12 main_arg13 main_arg14 main_arg15 main_arg16 main_arg17 main_arg18 main_arg19 main_arg20 main_arg21 main_v33

def fn {F : FTy → Type} [FloatOps F] (main_arg0 : FVec F S100000x128 .f32) (main_arg1 : FVec F S128x128 .f32) (main_arg2 : IVec S1600000 32) (main_arg3 : IVec S1600000 32) (main_arg4 : IVec S100000 32) (main_arg5 : IVec S100000 32) (main_arg6 : FVec F S128x128 .f32) (main_arg7 : FVec F S128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x64 .f32) (main_arg15 : FVec F S64 .f32) (main_arg16 : FVec F S128x64 .f32) (main_arg17 : FVec F S64 .f32) (main_arg18 : FVec F S128x64 .f32) (main_arg19 : FVec F S128x64 .f32) (main_arg20 : FVec F S64 .f32) (main_arg21 : FVec F S128x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg8 main_arg9 main_arg10 main_arg11 main_arg12 main_arg13 main_arg14 main_arg15 main_arg16 main_arg17 main_arg18 main_arg19 main_arg20 main_arg21 main_v13 main_v16
-- ==== Kernel.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S1x128 : Shape := ⟨2, ![1, 128]⟩
abbrev S5000x128 : Shape := ⟨2, ![5000, 128]⟩
abbrev S1600000x128 : Shape := ⟨2, ![1600000, 128]⟩
abbrev S5000x1 : Shape := ⟨2, ![5000, 1]⟩
abbrev S1x64 : Shape := ⟨2, ![1, 64]⟩
abbrev S100000x64 : Shape := ⟨2, ![100000, 64]⟩
abbrev S5000x64 : Shape := ⟨2, ![5000, 64]⟩
abbrev S1600000x64 : Shape := ⟨2, ![1600000, 64]⟩

abbrev nBuf : Space → Nat
  | .hbm => 126
  | .vmem => 66
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S1600000, .i32⟩
  | .hbm, ⟨3, _⟩ => ⟨S1600000, .i32⟩
  | .hbm, ⟨4, _⟩ => ⟨S100000, .i32⟩
  | .hbm, ⟨5, _⟩ => ⟨S100000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x64, .f32⟩
  | .hbm, ⟨15, _⟩ => ⟨S64, .f32⟩
  | .hbm, ⟨16, _⟩ => ⟨S128x64, .f32⟩
  | .hbm, ⟨17, _⟩ => ⟨S64, .f32⟩
  | .hbm, ⟨18, _⟩ => ⟨S128x64, .f32⟩
  | .hbm, ⟨19, _⟩ => ⟨S128x64, .f32⟩
  | .hbm, ⟨20, _⟩ => ⟨S64, .f32⟩
  | .hbm, ⟨21, _⟩ => ⟨S128x64, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000, .f32⟩
  | .hbm, ⟨52, _⟩ => ⟨S1600000, .f32⟩
  | .hbm, ⟨53, _⟩ => ⟨S1600000x1, .f32⟩
  | .hbm, ⟨54, _⟩ => ⟨S_, .f32⟩
  | .hbm, ⟨55, _⟩ => ⟨S100000x128, .f32⟩
  | .hbm, ⟨56, _⟩ => ⟨S_, .i32⟩
  | .hbm, ⟨57, _⟩ => ⟨S100000, .i32⟩
  | .hbm, ⟨58, _⟩ => ⟨S100000, .i1⟩
  | .hbm, ⟨59, _⟩ => ⟨S_, .i32⟩
  | .hbm, ⟨60, _⟩ => ⟨S100000, .i32⟩
  | .hbm, ⟨61, _⟩ => ⟨S100000, .i32⟩
  | .hbm, ⟨62, _⟩ => ⟨S100000, .i32⟩
  | .hbm, ⟨63, _⟩ => ⟨S_, .i32⟩
  | .hbm, ⟨64, _⟩ => ⟨S100000, .i32⟩
  | .hbm, ⟨65, _⟩ => ⟨S100000, .i1⟩
  | .hbm, ⟨66, _⟩ => ⟨S_, .i32⟩
  | .hbm, ⟨67, _⟩ => ⟨S100000, .i32⟩
  | .hbm, ⟨68, _⟩ => ⟨S100000, .i32⟩
  | .hbm, ⟨69, _⟩ => ⟨S100000, .i32⟩
  | .hbm, ⟨70, _⟩ => ⟨S100000x1, .i32⟩
  | .hbm, ⟨71, _⟩ => ⟨S100000x1, .i32⟩
  | .hbm, ⟨72, _⟩ => ⟨S100000x2, .i32⟩
  | .hbm, ⟨73, _⟩ => ⟨S_, .f32⟩
  | .hbm, ⟨74, _⟩ => ⟨S100000, .f32⟩
  | .hbm, ⟨75, _⟩ => ⟨S100000x128, .f32⟩
  | .hbm, ⟨76, _⟩ => ⟨S128x128, .bf16⟩
  | .hbm, ⟨77, _⟩ => ⟨S128x128, .bf16⟩
  | .hbm, ⟨78, _⟩ => ⟨S128x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S_, .i32⟩
  | .hbm, ⟨83, _⟩ => ⟨S1600000, .i32⟩
  | .hbm, ⟨84, _⟩ => ⟨S1600000, .i1⟩
  | .hbm, ⟨85, _⟩ => ⟨S_, .i32⟩
  | .hbm, ⟨86, _⟩ => ⟨S1600000, .i32⟩
  | .hbm, ⟨87, _⟩ => ⟨S1600000, .i32⟩
  | .hbm, ⟨88, _⟩ => ⟨S1600000, .i32⟩
  | .hbm, ⟨89, _⟩ => ⟨S1600000x1, .i32⟩
  | .hbm, ⟨90, _⟩ => ⟨S1600000x128, .f32⟩
  | .hbm, ⟨91, _⟩ => ⟨S1600000x128, .f32⟩
  | .hbm, ⟨92, _⟩ => ⟨S1600000x128, .f32⟩
  | .hbm, ⟨93, _⟩ => ⟨S_, .f32⟩
  | .hbm, ⟨94, _⟩ => ⟨S100000x128, .f32⟩
  | .hbm, ⟨95, _⟩ => ⟨S1600000x1, .i32⟩
  | .hbm, ⟨96, _⟩ => ⟨S100000x128, .f32⟩
  | .hbm, ⟨97, _⟩ => ⟨S1x128, .f32⟩
  | .hbm, ⟨98, _⟩ => ⟨S100000x128, .f32⟩
  | .hbm, ⟨99, _⟩ => ⟨S1x128, .f32⟩
  | .hbm, ⟨100, _⟩ => ⟨S128x128, .f32⟩
  | .hbm, ⟨101, _⟩ => ⟨S128x128, .bf16⟩
  | .hbm, ⟨102, _⟩ => ⟨S128x64, .bf16⟩
  | .hbm, ⟨103, _⟩ => ⟨S128x64, .f32⟩
  | .hbm, ⟨104, _⟩ => ⟨S1x64, .f32⟩
  | .hbm, ⟨105, _⟩ => ⟨S100000x64, .f32⟩
  | .hbm, ⟨106, _⟩ => ⟨S100000x64, .f32⟩
  | .hbm, ⟨107, _⟩ => ⟨S_, .i32⟩
  | .hbm, ⟨108, _⟩ => ⟨S1600000, .i32⟩
  | .hbm, ⟨109, _⟩ => ⟨S1600000, .i1⟩
  | .hbm, ⟨110, _⟩ => ⟨S_, .i32⟩
  | .hbm, ⟨111, _⟩ => ⟨S1600000, .i32⟩
  | .hbm, ⟨112, _⟩ => ⟨S1600000, .i32⟩
  | .hbm, ⟨113, _⟩ => ⟨S1600000, .i32⟩
  | .hbm, ⟨114, _⟩ => ⟨S1600000x1, .i32⟩
  | .hbm, ⟨115, _⟩ => ⟨S1600000x64, .f32⟩
  | .hbm, ⟨116, _⟩ => ⟨S1600000x64, .f32⟩
  | .hbm, ⟨117, _⟩ => ⟨S1600000x64, .f32⟩
  | .hbm, ⟨118, _⟩ => ⟨S_, .f32⟩
  | .hbm, ⟨119, _⟩ => ⟨S100000x64, .f32⟩
  | .hbm, ⟨120, _⟩ => ⟨S1600000x1, .i32⟩
  | .hbm, ⟨121, _⟩ => ⟨S100000x64, .f32⟩
  | .hbm, ⟨122, _⟩ => ⟨S1x64, .f32⟩
  | .hbm, ⟨123, _⟩ => ⟨S100000x64, .f32⟩
  | .hbm, ⟨124, _⟩ => ⟨S1x64, .f32⟩
  | .hbm, ⟨125, _⟩ => ⟨S128x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S128x128, .f32⟩
  | .local _ .vmem, ⟨28, _⟩ => ⟨S1x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S128x64, .f32⟩
  | .local _ .vmem, ⟨38, _⟩ => ⟨S128x64, .f32⟩
  | .local _ .vmem, ⟨39, _⟩ => ⟨S128x64, .f32⟩
  | .local _ .vmem, ⟨40, _⟩ => ⟨S1x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x1, .f32⟩
  | .local _ .vmem, ⟨50, _⟩ => ⟨S5000x1, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S5000x64, .f32⟩
  | .local _ .vmem, ⟨55, _⟩ => ⟨S5000x64, .f32⟩
  | .local _ .vmem, ⟨56, _⟩ => ⟨S5000x128, .f32⟩
  | .local _ .vmem, ⟨57, _⟩ => ⟨S5000x128, .f32⟩
  | .local _ .vmem, ⟨58, _⟩ => ⟨S5000x128, .f32⟩
  | .local _ .vmem, ⟨59, _⟩ => ⟨S5000x128, .f32⟩
  | .local _ .vmem, ⟨60, _⟩ => ⟨S128x64, .f32⟩
  | .local _ .vmem, ⟨61, _⟩ => ⟨S1x64, .f32⟩
  | .local _ .vmem, ⟨62, _⟩ => ⟨S128x128, .f32⟩
  | .local _ .vmem, ⟨63, _⟩ => ⟨S128x64, .f32⟩
  | .local _ .vmem, ⟨64, _⟩ => ⟨S128x64, .f32⟩
  | .local _ .vmem, ⟨65, _⟩ => ⟨S128x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_cst : Ref sig .tc := ⟨.hbm, 22, rfl⟩
abbrev main_v0 : Ref sig .tc := ⟨.hbm, 23, rfl⟩
abbrev main_cst_0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_cst_1 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c : Ref sig .tc := ⟨.hbm, 34, rfl⟩
abbrev main_v9 : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_3 : Ref sig .tc := ⟨.hbm, 43, rfl⟩
abbrev main_v16 : Ref sig .tc := ⟨.hbm, 44, rfl⟩
abbrev main_v17 : Ref sig .tc := ⟨.hbm, 45, rfl⟩
abbrev main_c_4 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_cst_5 : Ref sig .tc := ⟨.hbm, 54, rfl⟩
abbrev main_v25 : Ref sig .tc := ⟨.hbm, 55, rfl⟩
abbrev main_c_6 : Ref sig .tc := ⟨.hbm, 56, rfl⟩
abbrev main_v26 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_c_8 : Ref sig .tc := ⟨.hbm, 63, rfl⟩
abbrev main_v31 : Ref sig .tc := ⟨.hbm, 64, rfl⟩
abbrev main_v32 : Ref sig .tc := ⟨.hbm, 65, rfl⟩
abbrev main_c_9 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_10 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45_0 : Ref sig .tc := ⟨.hbm, 80, rfl⟩
abbrev main_v45_1 : Ref sig .tc := ⟨.hbm, 81, rfl⟩
abbrev main_c_11 : Ref sig .tc := ⟨.hbm, 82, rfl⟩
abbrev main_v46 : Ref sig .tc := ⟨.hbm, 83, rfl⟩
abbrev main_v47 : Ref sig .tc := ⟨.hbm, 84, rfl⟩
abbrev main_c_12 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_13 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66_0 : Ref sig .tc := ⟨.hbm, 105, rfl⟩
abbrev main_v66_1 : Ref sig .tc := ⟨.hbm, 106, rfl⟩
abbrev main_c_14 : Ref sig .tc := ⟨.hbm, 107, rfl⟩
abbrev main_v67 : Ref sig .tc := ⟨.hbm, 108, rfl⟩
abbrev main_v68 : Ref sig .tc := ⟨.hbm, 109, rfl⟩
abbrev main_c_15 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_cst_16 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg6_0 : Ref sig .tc := ⟨.vmem, 41, rfl⟩
abbrev cc3_stg6_1 : Ref sig .tc := ⟨.vmem, 42, rfl⟩
abbrev cc3_stg7_0 : Ref sig .tc := ⟨.vmem, 43, rfl⟩
abbrev cc3_stg7_1 : Ref sig .tc := ⟨.vmem, 44, rfl⟩
abbrev cc4_stg0_0 : Ref sig .tc := ⟨.vmem, 45, rfl⟩
abbrev cc4_stg0_1 : Ref sig .tc := ⟨.vmem, 46, rfl⟩
abbrev cc4_stg1_0 : Ref sig .tc := ⟨.vmem, 47, rfl⟩
abbrev cc4_stg1_1 : Ref sig .tc := ⟨.vmem, 48, rfl⟩
abbrev cc4_stg2_0 : Ref sig .tc := ⟨.vmem, 49, rfl⟩
abbrev cc4_stg2_1 : Ref sig .tc := ⟨.vmem, 50, rfl⟩
abbrev cc4_stg3_0 : Ref sig .tc := ⟨.vmem, 51, rfl⟩
abbrev cc4_stg4_0 : Ref sig .tc := ⟨.vmem, 52, rfl⟩
abbrev cc4_stg4_1 : Ref sig .tc := ⟨.vmem, 53, rfl⟩
abbrev cc4_stg5_0 : Ref sig .tc := ⟨.vmem, 54, rfl⟩
abbrev cc4_stg5_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg1_1 : Ref sig .tc := ⟨.vmem, 59, rfl⟩
abbrev cc5_stg2_0 : Ref sig .tc := ⟨.vmem, 60, rfl⟩
abbrev cc5_stg3_0 : Ref sig .tc := ⟨.vmem, 61, rfl⟩
abbrev cc5_stg4_0 : Ref sig .tc := ⟨.vmem, 62, rfl⟩
abbrev cc5_stg5_0 : Ref sig .tc := ⟨.vmem, 63, rfl⟩
abbrev cc5_stg6_0 : Ref sig .tc := ⟨.vmem, 64, rfl⟩
abbrev cc5_scratch0 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem6_0 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc3_sem7_0 : DmaSem sig := 42
abbrev cc3_sem7_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem4_1 : DmaSem sig := 52
abbrev cc4_sem5_0 : DmaSem sig := 53
abbrev cc4_sem5_1 : DmaSem sig := 54
abbrev cc5_sem0_0 : DmaSem sig := 55
abbrev cc5_sem0_1 : DmaSem sig := 56
abbrev cc5_sem1_0 : DmaSem sig := 57
abbrev cc5_sem1_1 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem6_0 : DmaSem sig := 63

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v14 : BitVec 1 := Scalar.cmpi .eq arg0 c19_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v15 : BitVec 1 := Scalar.cmpi .eq arg0 c19_i32
  let v16 : BitVec 32 := Scalar.extui v15
  let c0_i32_8 : BitVec 32 := 0#32
  let v17 : BitVec 1 := Scalar.cmpi .ne v16 c0_i32_8
  v17

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S128x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  bcast_S_S100000x128 : S_.BroadcastsInDim S100000x128 (![] : Fin 0 → Fin S100000x128.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1600000x1_S1600000x128_0_1 : S1600000x1.BroadcastsInDim S1600000x128 (![0, 1] : Fin 2 → Fin S1600000x128.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S128x128 : S1x128.Broadcasts S128x128
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S5000x64_S5000x64 : S5000x64.ShapeCasts S5000x64
  broadcasts_S5000x1_S5000x64 : S5000x1.Broadcasts S5000x64
  broadcasts_S1x64_S128x64 : S1x64.Broadcasts S128x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  scatter_S100000x128_S100000x2_S100000_n_01_01_1_wf : ScatterDims.WF S100000x128 S100000x2 S100000 [] [0, 1] [0, 1] 1
  dot_S128x128_S128x128_S128x128_1_0_0_1_n_n_wf : DotDims.WF S128x128 S128x128 S128x128 [1] [0] [0] [1] [] []
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S5000x128_S128x128_0_0_1_1_n_n_wf : DotDims.WF S5000x128 S5000x128 S128x128 [0] [0] [1] [1] [] []
  dot_S128x128_S128x64_S128x64_1_0_0_1_n_n_wf : DotDims.WF S128x128 S128x64 S128x64 [1] [0] [0] [1] [] []
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x64.size a ≤ S128x64.size a
  hwx3_2 : ∀ i : grid3.Coords, EltTy.bits .f32 = 32 ∨ (Rect.block (s := S128x64) S128x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x64.size a ≤ S128x64.size a
  hwx3_4 : ∀ i : grid3.Coords, EltTy.bits .f32 = 32 ∨ (Rect.block (s := S128x64) S128x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x64.size a ≤ S128x64.size a
  hwx5_2 : ∀ i : grid5.Coords, EltTy.bits .f32 = 32 ∨ (Rect.block (s := S128x64) S128x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x64.size a ≤ S128x64.size a
  hwx5_5 : ∀ i : grid5.Coords, EltTy.bits .f32 = 32 ∨ (Rect.block (s := S128x64) S128x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S128x64.size a ≤ S128x64.size a
  hwx5_6 : ∀ i : grid5.Coords, EltTy.bits .f32 = 32 ∨ (Rect.block (s := S128x64) S128x64.size (cc5_transform_6 i) (hinb5_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S100000x2_S100000_n_01_01_1 : ScatterDims S100000x128 S100000x2 S100000 where
  updateWindowDims := []
  insertedWindowDims := [0, 1]
  scatterDimsToOperandDims := [0, 1]
  indexVectorDim := 1
  wf := scatter_S100000x128_S100000x2_S100000_n_01_01_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S5000x128_S128x128_0_0_1_1_n_n : DotDims S5000x128 S5000x128 S128x128 where
  lhsContracting := [0]
  rhsContracting := [0]
  lhsNonContracting := [1]
  rhsNonContracting := [1]
  lhsBatch := []
  rhsBatch := []
  wf := dot_S5000x128_S5000x128_S128x128_0_0_1_1_n_n_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg13) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v43) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v44) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v45_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v57) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45_0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45_1) S5000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v59) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg1) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v61) S128x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg14) S128x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg21) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v64) S128x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v65) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v66_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v66_1) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v78) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v66_0) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v8) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v79) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66_1) S5000x64.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v80) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v59) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg16) S128x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v81) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg18) S128x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v82) S128x64.size cc5_transform_6 reads5_6 true true 1 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev idle5 : Fin 7 → grid5.Coords → Bool := fun | 0 => fun _ => false | 1 => fun _ => false | 2 => fun _ => false | 3 => fun _ => false | 4 => fun _ => false | 5 => fun _ => false | 6 => fun i => !(k5_cond2 i == 1#1) | ⟨_ + 7, h⟩ => absurd h (Nat.not_lt.2 (Nat.le_add_left _ _))

class Facts : Prop extends Facts₀ where

variable [Facts]
-- ==== ReferenceIdeal.lean ====
abbrev S100000x128 : Shape := ⟨2, ![100000, 128]⟩
abbrev S128x128 : Shape := ⟨2, ![128, 128]⟩
abbrev S1600000 : Shape := ⟨1, ![1600000]⟩
abbrev S100000 : Shape := ⟨1, ![100000]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 220
  | .vmem => 0
  | .smem => 0
  | _ => 0

abbrev hbmTy0_0 (i : Nat) : BufTy := match i % 128 with
  | 0 => ⟨S100000x128, .f32⟩
  | 1 => ⟨S128x128, .f32⟩
  | 2 => ⟨S1600000, .i32⟩
  | 3 => ⟨S1600000, .i32⟩
  | 4 => ⟨S100000, .i32⟩
  | 5 => ⟨S100000, .i32⟩
  | 6 => ⟨S128x128, .f32⟩
  | 7 => ⟨S128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x64, .f32⟩
  | 15 => ⟨S64, .f32⟩
  | 16 => ⟨S128x64, .f32⟩
  | 17 => ⟨S64, .f32⟩
  | 18 => ⟨S128x64, .f32⟩
  | 19 => ⟨S128x64, .f32⟩
  | 20 => ⟨S64, .f32⟩
  | 21 => ⟨S128x64, .f32⟩
  | 22 => ⟨S100000x128, .f32⟩
  | 23 => ⟨S_, .f32⟩
  | 24 => ⟨S1600000, .f32⟩
  | 25 => ⟨S_, .f32⟩
  | 26 => ⟨S100000, .f32⟩
  | 27 => ⟨S1600000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S_, .i32⟩
  | 43 => ⟨S1600000, .i32⟩
  | 44 => ⟨S1600000, .i1⟩
  | 45 => ⟨S_, .i32⟩
  | 46 => ⟨S1600000, .i32⟩
  | 47 => ⟨S1600000, .i32⟩
  | 48 => ⟨S1600000, .i32⟩
  | 49 => ⟨S1600000x1, .i32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S100000, .f32⟩
  | 69 => ⟨S100000x1, .f32⟩
  | 70 => ⟨S100000x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .i32⟩
  | 77 => ⟨S100000, .i32⟩
  | 78 => ⟨S100000, .i1⟩
  | 79 => ⟨S_, .i32⟩
  | 80 => ⟨S100000, .i32⟩
  | 81 => ⟨S100000, .i32⟩
  | 82 => ⟨S100000, .i32⟩
  | 83 => ⟨S100000x1, .i32⟩
  | 84 => ⟨S100000x128, .f32⟩
  | 85 => ⟨S_, .f32⟩
  | 86 => ⟨S100000x128, .f32⟩
  | 87 => ⟨S100000x1, .i32⟩
  | 88 => ⟨S100000x128, .f32⟩
  | 89 => ⟨S100000x128, .f32⟩
  | 90 => ⟨S1x128, .f32⟩
  | 91 => ⟨S100000x128, .f32⟩
  | 92 => ⟨S100000x128, .f32⟩
  | 93 => ⟨S100000x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S_, .i32⟩
  | 100 => ⟨S100000, .i32⟩
  | 101 => ⟨S100000, .i1⟩
  | 102 => ⟨S_, .i32⟩
  | 103 => ⟨S100000, .i32⟩
  | 104 => ⟨S100000, .i32⟩
  | 105 => ⟨S100000, .i32⟩
  | 106 => ⟨S100000x1, .i32⟩
  | 107 => ⟨S100000x128, .f32⟩
  | 108 => ⟨S_, .f32⟩
  | 109 => ⟨S128x128, .f32⟩
  | 110 => ⟨S100000x1, .i32⟩
  | 111 => ⟨S128x128, .f32⟩
  | 112 => ⟨S128x128, .f32⟩
  | 113 => ⟨S1x128, .f32⟩
  | 114 => ⟨S128x128, .f32⟩
  | 115 => ⟨S128x128, .f32⟩
  | 116 => ⟨S128x128, .f32⟩
  | 117 => ⟨S128x128, .f32⟩
  | 118 => ⟨S_, .f32⟩
  | 119 => ⟨S100000x128, .f32⟩
  | 120 => ⟨S100000x128, .f32⟩
  | 121 => ⟨S_, .f32⟩
  | 122 => ⟨S128x128, .f32⟩
  | 123 => ⟨S128x128, .f32⟩
  | 124 => ⟨S100000x64, .f32⟩
  | 125 => ⟨S_, .f32⟩
  | 126 => ⟨S1600000, .f32⟩
  | 127 => ⟨S_, .f32⟩
  | _ => ⟨S100000x128, .f32⟩

abbrev hbmTy0_1 (i : Nat) : BufTy := match i % 128 with
  | 0 => ⟨S100000, .f32⟩
  | 1 => ⟨S1600000x1, .i32⟩
  | 2 => ⟨S100000, .f32⟩
  | 3 => ⟨S_, .f32⟩
  | 4 => ⟨S100000, .f32⟩
  | 5 => ⟨S100000, .f32⟩
  | 6 => ⟨S100000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000, .f32⟩
  | 25 => ⟨S1600000, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S1600000x1, .f32⟩
  | 36 => ⟨S1600000x64, .f32⟩
  | 37 => ⟨S1600000x64, .f32⟩
  | 38 => ⟨S_, .f32⟩
  | 39 => ⟨S100000x64, .f32⟩
  | 40 => ⟨S1600000x1, .i32⟩
  | 41 => ⟨S100000x64, .f32⟩
  | 42 => ⟨S100000, .f32⟩
  | 43 => ⟨S100000x1, .f32⟩
  | 44 => ⟨S100000x64, .f32⟩
  | 45 => ⟨S100000x64, .f32⟩
  | 46 => ⟨S100000x64, .f32⟩
  | 47 => ⟨S1x64, .f32⟩
  | 48 => ⟨S100000x64, .f32⟩
  | 49 => ⟨S100000x64, .f32⟩
  | 50 => ⟨S_, .i32⟩
  | 51 => ⟨S100000, .i32⟩
  | 52 => ⟨S100000, .i1⟩
  | 53 => ⟨S_, .i32⟩
  | 54 => ⟨S100000, .i32⟩
  | 55 => ⟨S100000, .i32⟩
  | 56 => ⟨S100000, .i32⟩
  | 57 => ⟨S100000x1, .i32⟩
  | 58 => ⟨S100000x128, .f32⟩
  | 59 => ⟨S_, .f32⟩
  | 60 => ⟨S100000x128, .f32⟩
  | 61 => ⟨S100000x1, .i32⟩
  | 62 => ⟨S100000x128, .f32⟩
  | 63 => ⟨S100000x64, .f32⟩
  | 64 => ⟨S1x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S_, .f32⟩
  | 71 => ⟨S100000x64, .f32⟩
  | 72 => ⟨S100000x64, .f32⟩
  | 73 => ⟨S_, .i32⟩
  | 74 => ⟨S100000, .i32⟩
  | 75 => ⟨S100000, .i1⟩
  | 76 => ⟨S_, .i32⟩
  | 77 => ⟨S100000, .i32⟩
  | 78 => ⟨S100000, .i32⟩
  | 79 => ⟨S100000, .i32⟩
  | 80 => ⟨S100000x1, .i32⟩
  | 81 => ⟨S100000x128, .f32⟩
  | 82 => ⟨S_, .f32⟩
  | 83 => ⟨S128x128, .f32⟩
  | 84 => ⟨S100000x1, .i32⟩
  | 85 => ⟨S128x128, .f32⟩
  | 86 => ⟨S128x64, .f32⟩
  | 87 => ⟨S1x64, .f32⟩
  | 88 => ⟨S128x64, .f32⟩
  | 89 => ⟨S128x64, .f32⟩
  | 90 => ⟨S128x64, .f32⟩
  | 91 => ⟨S128x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_cst_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_cst_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_c : Ref sig .tc := ⟨.hbm, 33, rfl⟩
abbrev main_v8 : Ref sig .tc := ⟨.hbm, 34, rfl⟩
abbrev main_v9 : Ref sig .tc := ⟨.hbm, 35, rfl⟩
abbrev main_c_2 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_3 : Ref sig .tc := ⟨.hbm, 42, rfl⟩
abbrev main_v15 : Ref sig .tc := ⟨.hbm, 43, rfl⟩
abbrev main_v16 : Ref sig .tc := ⟨.hbm, 44, rfl⟩
abbrev main_c_4 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_c_5 : Ref sig .tc := ⟨.hbm, 52, rfl⟩
abbrev main_v23 : Ref sig .tc := ⟨.hbm, 53, rfl⟩
abbrev main_v24 : Ref sig .tc := ⟨.hbm, 54, rfl⟩
abbrev main_c_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_7 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_c_8 : Ref sig .tc := ⟨.hbm, 76, rfl⟩
abbrev main_v44 : Ref sig .tc := ⟨.hbm, 77, rfl⟩
abbrev main_v45 : Ref sig .tc := ⟨.hbm, 78, rfl⟩
abbrev main_c_9 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_10 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_11 : Ref sig .tc := ⟨.hbm, 96, rfl⟩
abbrev main_v61 : Ref sig .tc := ⟨.hbm, 97, rfl⟩
abbrev main_v62 : Ref sig .tc := ⟨.hbm, 98, rfl⟩
abbrev main_c_12 : Ref sig .tc := ⟨.hbm, 99, rfl⟩
abbrev main_v63 : Ref sig .tc := ⟨.hbm, 100, rfl⟩
abbrev main_v64 : Ref sig .tc := ⟨.hbm, 101, rfl⟩
abbrev main_c_13 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_14 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_call0_cst : Ref sig .tc := ⟨.hbm, 118, rfl⟩
abbrev main_call0_v0 : Ref sig .tc := ⟨.hbm, 119, rfl⟩
abbrev main_v79 : Ref sig .tc := ⟨.hbm, 120, rfl⟩
abbrev main_call1_cst : Ref sig .tc := ⟨.hbm, 121, rfl⟩
abbrev main_call1_v0 : Ref sig .tc := ⟨.hbm, 122, rfl⟩
abbrev main_v80 : Ref sig .tc := ⟨.hbm, 123, rfl⟩
abbrev main_v81 : Ref sig .tc := ⟨.hbm, 124, rfl⟩
abbrev main_cst_15 : Ref sig .tc := ⟨.hbm, 125, rfl⟩
abbrev main_v82 : Ref sig .tc := ⟨.hbm, 126, rfl⟩
abbrev main_cst_16 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_cst_17 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_c_18 : Ref sig .tc := ⟨.hbm, 135, rfl⟩
abbrev main_v89 : Ref sig .tc := ⟨.hbm, 136, rfl⟩
abbrev main_v90 : Ref sig .tc := ⟨.hbm, 137, rfl⟩
abbrev main_c_19 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_c_20 : Ref sig .tc := ⟨.hbm, 144, rfl⟩
abbrev main_v96 : Ref sig .tc := ⟨.hbm, 145, rfl⟩
abbrev main_v97 : Ref sig .tc := ⟨.hbm, 146, rfl⟩
abbrev main_c_21 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_22 : Ref sig .tc := ⟨.hbm, 154, rfl⟩
abbrev main_v104 : Ref sig .tc := ⟨.hbm, 155, rfl⟩
abbrev main_v105 : Ref sig .tc := ⟨.hbm, 156, rfl⟩
abbrev main_c_23 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_cst_24 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_c_25 : Ref sig .tc := ⟨.hbm, 178, rfl⟩
abbrev main_v125 : Ref sig .tc := ⟨.hbm, 179, rfl⟩
abbrev main_v126 : Ref sig .tc := ⟨.hbm, 180, rfl⟩
abbrev main_c_26 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_27 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_28 : Ref sig .tc := ⟨.hbm, 198, rfl⟩
abbrev main_v142 : Ref sig .tc := ⟨.hbm, 199, rfl⟩
abbrev main_v143 : Ref sig .tc := ⟨.hbm, 200, rfl⟩
abbrev main_c_29 : Ref sig .tc := ⟨.hbm, 201, rfl⟩
abbrev main_v144 : Ref sig .tc := ⟨.hbm, 202, rfl⟩
abbrev main_v145 : Ref sig .tc := ⟨.hbm, 203, rfl⟩
abbrev main_c_30 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_cst_31 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128x128 : S_.BroadcastsInDim S128x128 (![] : Fin 0 → Fin S128x128.rank)
  bcast_S1x128_S128x128_0_1 : S1x128.BroadcastsInDim S128x128 (![0, 1] : Fin 2 → Fin S128x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S128x64_0_1 : S1x64.BroadcastsInDim S128x64 (![0, 1] : Fin 2 → Fin S128x64.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S128x128_S100000x1_S100000x128_1_0_n_n_0_1_1128_wf : GatherDims.WF S128x128 S100000x1 S100000x128 [1] [0] [] [0] [] 1 ![1, 128]
  scatter_S100000x128_S100000x1_S100000x128_1_0_0_1_wf : ScatterDims.WF S100000x128 S100000x1 S100000x128 [1] [0] [0] 1
  gather_S100000x128_S100000x1_S100000x128_1_0_n_n_0_1_1128_wf : GatherDims.WF S100000x128 S100000x1 S100000x128 [1] [0] [] [0] [] 1 ![1, 128]
  scatter_S128x128_S100000x1_S100000x128_1_0_0_1_wf : ScatterDims.WF S128x128 S100000x1 S100000x128 [1] [0] [0] 1
  dot_S128x128_S128x128_S128x128_1_0_0_1_n_n_wf : DotDims.WF S128x128 S128x128 S128x128 [1] [0] [0] [1] [] []
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S128x128_S128x64_S128x64_1_0_0_1_n_n_wf : DotDims.WF S128x128 S128x64 S128x64 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S128x128_S100000x1_S100000x128_1_0_n_n_0_1_1128 : GatherDims S128x128 S100000x1 S100000x128 where
  offsetDims := [1]
  collapsedSliceDims := [0]
  operandBatchingDims := []
  startIndicesBatchingDims := []
  startIndexMap := [0]
  indexVectorDim := 1
  sliceSizes := ![1, 128]
  wf := gather_S128x128_S100000x1_S100000x128_1_0_n_n_0_1_1128_wf
def scatter_S100000x128_S100000x1_S100000x128_1_0_0_1 : ScatterDims S100000x128 S100000x1 S100000x128 where
  updateWindowDims := [1]
  insertedWindowDims := [0]
  scatterDimsToOperandDims := [0]
  indexVectorDim := 1
  wf := scatter_S100000x128_S100000x1_S100000x128_1_0_0_1_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def scatter_S128x128_S100000x1_S100000x128_1_0_0_1 : ScatterDims S128x128 S100000x1 S100000x128 where
  updateWindowDims := [1]
  insertedWindowDims := [0]
  scatterDimsToOperandDims := [0]
  indexVectorDim := 1
  wf := scatter_S128x128_S100000x1_S100000x128_1_0_0_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S128x128_S128x64_S128x64_1_0_0_1_n_n : DotDims S128x128 S128x64 S128x64 where
  lhsContracting := [1]
  rhsContracting := [0]
  lhsNonContracting := [0]
  rhsNonContracting := [1]
  lhsBatch := []
  rhsBatch := []
  wf := dot_S128x128_S128x64_S128x64_1_0_0_1_n_n_wf

class Facts : Prop extends Facts₀ where

variable [Facts]
-- ==== Proof.KI.R0.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rowsR0 : Rect S5000x128 := Rect.unit (s := S5000x128) ![0, 0] S5000x128.size inb_S5000x128_S5000x128_0_0
abbrev wgtR0 : Rect S128x128 := Rect.unit (s := S128x128) ![0, 0] S128x128.size inb_S128x128_S128x128_0_0
abbrev biasR0 : Rect S1x128 := Rect.unit (s := S1x128) ![0, 0] S1x128.size inb_S1x128_S1x128_0_0
abbrev outR0 : Rect S5000x128 := Rect.unit (s := S5000x128) ![0, 0] S5000x128.size inb_S5000x128_S5000x128_0_0

def out0_6 (x0 : Vec F S5000x128 .f32) (x2 : Vec F S128x128 .f32) :
    Vec F S5000x128 .f32 :=
  View.canon [⟨outR0, k0_pay2 (View.ld x0 rowsR0) (View.ld x2 wgtR0)⟩]

def out0_7 (x0 x1 : Vec F S5000x128 .f32) (x3 x4 : Vec F S128x128 .f32) (x5 : Vec F S1x128 .f32) :
    Vec F S5000x128 .f32 :=
  View.canon [⟨outR0, k0_pay3 (View.ld x0 rowsR0) (View.ld x1 rowsR0) (View.ld x3 wgtR0) (View.ld x4 wgtR0) (View.ld x5 biasR0)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 2 t)
    | ⟨7, _⟩ => out0_7 (iblk0 V c 0 t) (iblk0 V c 1 t) (iblk0 V c 3 t) (iblk0 V c 4 t) (iblk0 V c 5 t)
  Φ _ := Pipeline.ΦA spec0 c
  q _ := fullShare
  owed _ := 0

theorem A_eq0 (c : Dev nD) (w : Fin cfg0.W) : (dat0 V c).A w = V c (Pipeline.arrRef spec0 w) := rfl

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem after0_6 (c : Dev nD) (t : Fin cfg0.N) :
    (dat0 V c).after 6 t = out0_6 (iblk0 V c 0 t) (iblk0 V c 2 t) := by dsimp only [dat0]

theorem after0_7 (c : Dev nD) (t : Fin cfg0.N) :
    (dat0 V c).after 7 t = out0_7 (iblk0 V c 0 t) (iblk0 V c 1 t) (iblk0 V c 3 t) (iblk0 V c 4 t) (iblk0 V c 5 t) := by
  dsimp only [dat0]

theorem before0 (c : Dev nD) (t : Fin cfg0.N) :
    ∀ (w : Fin cfg0.W) (d), w.1 < 6 → (dat0 V c).before w t d = (dat0 V c).after w t
  | ⟨0, _⟩, d, _ | ⟨1, _⟩, d, _ | ⟨2, _⟩, d, _ | ⟨3, _⟩, d, _ | ⟨4, _⟩, d, _ | ⟨5, _⟩, d, _ =>
    ((dat0 V c).before_in_eq_fetched _ rfl (fun _ => rfl) (fun _ _ _ => rfl) (fun _ => rfl) t d).trans rfl
  | ⟨_ + 6, _⟩, _, h => absurd h (Nat.not_lt.2 (Nat.le_add_left _ _))

theorem sound_kernel0 {c : Dev nD} {E : Set ℕ} {i : grid0.Coords}
    {a0 a1 : Memref sig .tc .vmem S5000x128 .f32} {a2 a3 a4 : Memref sig .tc .vmem S128x128 .f32} {a5 : Memref sig .tc .vmem S1x128 .f32}
    {a6 a7 : Memref sig .tc .vmem S5000x128 .f32} {h0 : a0.IsWhole} {h1 : a1.IsWhole} {h2 : a2.IsWhole} {h3 : a3.IsWhole}
    {h4 : a4.IsWhole} {h5 : a5.IsWhole} {h6 : a6.IsWhole} {h7 : a7.IsWhole}
    {x0 x1 : Vec F S5000x128 .f32} {x2 x3 x4 : Vec F S128x128 .f32} {x5 : Vec F S1x128 .f32}
    {d6 d7 : Vec F S5000x128 .f32} {K : PUnit → sProp 𝕄} :
    iprop(owns c.tc a0 fullShare x0 ∗ owns c.tc a1 fullShare x1
        ∗ owns c.tc a2 fullShare x2 ∗ owns c.tc a3 fullShare x3
        ∗ owns c.tc a4 fullShare x4 ∗ owns c.tc a5 fullShare x5
        ∗ owns c.tc a6 fullShare d6 ∗ owns c.tc a7 fullShare d7
        ∗ (iprop(owns c.tc a0 fullShare x0 ∗ owns c.tc a1 fullShare x1
            ∗ owns c.tc a2 fullShare x2 ∗ owns c.tc a3 fullShare x3
            ∗ owns c.tc a4 fullShare x4 ∗ owns c.tc a5 fullShare x5
            ∗ owns c.tc a6 fullShare (out0_6 x0 x2)
            ∗ owns c.tc a7 fullShare (out0_7 x0 x1 x3 x4 x5)) -∗ K ⟨⟩))
      ⊢ wp frame (wpE (defs₀ (F := F)) Variants.none c none) E (cc0__k1_body i a0 h0 a1 h1 a2 h2 a3 h3 a4 h4 a5 h5 a6 h6 a7 h7) K := by
  simp only [cc0__k1_body_eq_skeleton]; unfold cc0__k1_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩,
    ⟨%f6, -, H6⟩, ⟨%f7, -, H7⟩, Hk⟩
  subst e0 e1 e2 e3 e4 e5
  sl_exec
  sl_step
  iapply Hk
  isplitl [H0]; · iexists f0; isplitr <;> first | iassumption | (ipureintro; rfl)
  isplitl [H1]; · iexists f1; isplitr <;> first | iassumption | (ipureintro; rfl)
  isplitl [H2]; · iexists f2; isplitr <;> first | iassumption | (ipureintro; rfl)
  isplitl [H3]; · iexists f3; isplitr <;> first | iassumption | (ipureintro; rfl)
  isplitl [H4]; · iexists f4; isplitr <;> first | iassumption | (ipureintro; rfl)
  isplitl [H5]; · iexists f5; isplitr <;> first | iassumption | (ipureintro; rfl)
  isplitl [H6] <;>
    (iexists _; isplitr; swap; iassumption; ipureintro; exact View.read_writes_eq_canon _ _ _ (View.cover_of_tiled _ S5000x128.size (by rfl)))

theorem body_obligation0 (c : Dev nD) : BodyObligation (dat0 (F := F) V c) (defs₀ (F := F)) Variants.none () Set.univ := fun t => by
  rw [bigSep_W0, bigSep_W0]
  change _ ⊢ wp _ _ _ (bodyAt0 t) _
  simp (disch := decide) only [before0]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel0
  iframe H0 H1 H2 H3 H4 H5 H6 H7
  iintro H
  iframe HΦ H
  iexact Ho

theorem hin0 (c : Dev nD) : (Pipeline.ΦA spec0 c : sProp 𝕄) ⊢ (dat0 V c).Φ 0 := Entails.of_eq rfl

theorem hout0 (c : Dev nD) : (dat0 V c).Φ (Fin.last cfg0.N) ⊢ (Pipeline.ΦA spec0 c : sProp 𝕄) := Entails.of_eq rfl

end Cert.KernelIdeal.Hand

end
-- ==== Proof.KI.R1.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F] (V : (c : Dev nD) → (b : Ref sig .tc) → Buf (Elt F) ((c : Thread nD τ).loc b)) (c : Dev nD)

local notation "𝕄" => MT nD τ sig Unit (Elt F) ℕ (UR sig nD τ) ℕ

def iblk1 (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev full1_mat : Rect S5000x128 := Rect.unit (s := S5000x128) ![0, 0] S5000x128.size inb_S5000x128_S5000x128_0_0
abbrev full1_col : Rect S5000x1 := Rect.unit (s := S5000x1) ![0, 0] S5000x1.size inb_S5000x1_S5000x1_0_0
abbrev full1_row : Rect S1x128 := Rect.unit (s := S1x128) ![0, 0] S1x128.size inb_S1x128_S1x128_0_0

-- The output block a point leaves, as a function of the five input blocks there.
def out1_5 (a h : Vec F S5000x128 .f32) (s : Vec F S5000x1 .f32) (b : Vec F S1x128 .f32) (p : Vec F S5000x128 .f32) :
    Vec F S5000x128 .f32 :=
  View.canon [⟨full1_mat, k1_pay1 (View.ld a full1_mat) (View.ld s full1_col) (View.ld h full1_mat) (View.ld b full1_row) (View.ld p full1_mat)⟩]

-- One point of the body: the five inputs come back as they were, the output holds `out1_5` of them.
theorem run1 {E : Set ℕ} {i : grid1.Coords} {m0 m1 m4 m5 : Memref sig .tc .vmem S5000x128 .f32}
    {m2 : Memref sig .tc .vmem S5000x1 .f32} {m3 : Memref sig .tc .vmem S1x128 .f32}
    {w0 : m0.IsWhole} {w1 : m1.IsWhole} {w2 : m2.IsWhole} {w3 : m3.IsWhole} {w4 : m4.IsWhole} {w5 : m5.IsWhole}
    (a h : Vec F S5000x128 .f32) (s : Vec F S5000x1 .f32) (b : Vec F S1x128 .f32) (p : Vec F S5000x128 .f32)
    {K : PUnit → sProp 𝕄} :
    iprop(owns (c : Thread nD τ) m0 fullShare a ∗ owns (c : Thread nD τ) m1 fullShare h ∗ owns (c : Thread nD τ) m2 fullShare s
        ∗ owns (c : Thread nD τ) m3 fullShare b ∗ owns (c : Thread nD τ) m4 fullShare p
        ∗ (∃ d, owns (c : Thread nD τ) m5 fullShare d)
        ∗ (iprop(owns (c : Thread nD τ) m0 fullShare a ∗ owns (c : Thread nD τ) m1 fullShare h ∗ owns (c : Thread nD τ) m2 fullShare s
            ∗ owns (c : Thread nD τ) m3 fullShare b ∗ owns (c : Thread nD τ) m4 fullShare p
            ∗ owns (c : Thread nD τ) m5 fullShare (out1_5 a h s b p)) -∗ K ⟨⟩))
      ⊢ wp frame (wpE (defs₀ (F := F)) Variants.none c none) E (cc1__k3_body i m0 w0 m1 w1 m2 w2 m3 w3 m4 w4 m5 w5) K := by
  simp only [cc1__k3_body_eq_skeleton]; unfold cc1__k3_body_skel
  rw [owns_eq_rep (c : Thread nD τ) m0, owns_eq_rep (c : Thread nD τ) m1, owns_eq_rep (c : Thread nD τ) m2, owns_eq_rep (c : Thread nD τ) m3, owns_eq_rep (c : Thread nD τ) m4]
  unfold owns
  iintro ⟨H0, H1, H2, H3, H4, ⟨%d5, %f5, -, H5⟩, Hk⟩
  sl_exec
  sl_step
  iapply Hk
  iframe H0 H1 H2 H3 H4
  iexists _; isplitr
  swap
  · iexact H5
  ipureintro
  simp only [View.readAt_rep]
  exact View.read_writes_eq_canon _ _ _ (View.cover_of_tiled _ S5000x128.size (by rfl))

def dat1 : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (w : Fin cfg1.W) : (dat1 V c).A w = V c (Pipeline.arrRef spec1 w) := rfl

theorem q_eq1 (w : Fin cfg1.W) : (dat1 V c).q w = fullShare := rfl

theorem owed_eq1 (t : Fin (cfg1.N + 1)) : (dat1 V c).owed t = 0 := rfl

theorem recorded_eq1 (t : Fin (cfg1.N + 1)) : (dat1 V c).recorded t = Set.univ := rfl

theorem after1_5 (t : Fin cfg1.N) :
    (dat1 V c).after 5 t = out1_5 (iblk1 V c 0 t) (iblk1 V c 1 t) (iblk1 V c 2 t) (iblk1 V c 3 t) (iblk1 V c 4 t) := by
  dsimp only [dat1]

-- An input window is only read: what it holds before a point is what it holds after it.
theorem before1 (w : Fin cfg1.W) (hw : w ≠ 5) (t : Fin cfg1.N) (d) : (dat1 V c).before w t d = (dat1 V c).after w t :=
  match w, hw with
  | ⟨0, _⟩, _ | ⟨1, _⟩, _ | ⟨2, _⟩, _ | ⟨3, _⟩, _ | ⟨4, _⟩, _ =>
    (dat1 V c).before_in_eq_fetched _ rfl (fun _ => rfl) (fun _ _ _ => rfl) (fun _ => rfl) t d
  | ⟨5, _⟩, hw => absurd rfl hw

theorem hin1 : (Pipeline.ΦA spec1 c : sProp 𝕄) ⊢ (dat1 V c).Φ 0 := .rfl

theorem hout1 : (dat1 V c).Φ (Fin.last cfg1.N) ⊢ (Pipeline.ΦA spec1 c : sProp 𝕄) := .rfl

theorem body_obligation1 : BodyObligation (dat1 (F := F) V c) (defs₀ (F := F)) Variants.none () Set.univ := fun t => by
  show iprop(_ ∗ _ ∗ bigSep Finset.univ fun w => iprop(∃ d, owns _ _ _ ((dat1 V c).before w t d)))
    ⊢ wp frame _ _ (bodyAt1 t) fun _ => iprop(_ ∗ _ ∗ bigSep Finset.univ fun w => owns _ _ _ ((dat1 V c).after w t))
  rw [bigSep_W1, bigSep_W1, show (dat1 V c).owesAt () t.succ = (dat1 V c).owesAt () t.castSucc from rfl]
  simp (disch := decide) only [before1 V c]
  dsimp only [dat1]
  iintro ⟨HΦ, Ho, ⟨%_, H0⟩, ⟨%_, H1⟩, ⟨%_, H2⟩, ⟨%_, H3⟩, ⟨%_, H4⟩, %_, H5⟩
  iapply (run1 c (iblk1 V c 0 t) (iblk1 V c 1 t) (iblk1 V c 2 t) (iblk1 V c 3 t) (iblk1 V c 4 t))
  iframe H0 H1 H2 H3 H4
  isplitl [H5]; · iexists _; iexact H5
  iintro ⟨H0, H1, H2, H3, H4, H5⟩
  iframe

end Cert.KernelIdeal.Hand

end
-- ==== Proof.KI.R2.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rB2 : Rect S5000x128 := Rect.unit (s := S5000x128) ![0, 0] S5000x128.size inb_S5000x128_S5000x128_0_0
abbrev rS2 : Rect S128x128 := Rect.unit (s := S128x128) ![0, 0] S128x128.size inb_S128x128_S128x128_0_0
abbrev rW2 : Rect S128x128 := Rect.unit (s := S128x128) ![0, 0] S128x128.size inb_S128x128_S128x128_0_0
abbrev rO2 : Rect S128x128 := Rect.unit (s := S128x128) ![0, 0] S128x128.size inb_S128x128_S128x128_0_0
abbrev rV2 : Rect S1x128 := Rect.unit (s := S1x128) ![0, 0] S1x128.size inb_S1x128_S1x128_0_0

abbrev scM2 : Memref sig .tc .vmem S128x128 .f32 := Memref.whole cc2_scratch0

theorem zero2 : (![0, 0] : Fin 2 → ℕ) = fun _ => 0 := funext fun a => by fin_cases a <;> rfl

-- The whole-shape rectangle covers every index, so one store through it decides the contents.
theorem coverS2 (p : rS2.shape.Idx → Elt F .f32) (L : List (View.Piece (Elt F) S128x128 .f32)) (y : S128x128.Idx) :
    ∃ pc ∈ ((⟨rS2, p⟩ : View.Piece (Elt F) S128x128 .f32) :: L), y ∈ pc.1.set :=
  ⟨_, List.mem_cons_self, View.mem_set_unit_zero zero2 inb_S128x128_S128x128_0_0 y⟩

theorem coverO2 (p : rO2.shape.Idx → Elt F .f32) (L : List (View.Piece (Elt F) S128x128 .f32)) (y : S128x128.Idx) :
    ∃ pc ∈ ((⟨rO2, p⟩ : View.Piece (Elt F) S128x128 .f32) :: L), y ∈ pc.1.set :=
  ⟨_, List.mem_cons_self, View.mem_set_unit_zero zero2 inb_S128x128_S128x128_0_0 y⟩

theorem canon_coverS2 (p : rS2.shape.Idx → Elt F .f32) (L : List (View.Piece (Elt F) S128x128 .f32)) :
    View.canon ((⟨rS2, p⟩ : View.Piece (Elt F) S128x128 .f32) :: L) = View.canon [⟨rS2, p⟩] :=
  (View.canon_cons_unit_zero zero2 _ p L).trans (View.canon_unit_zero zero2 _ p).symm

def acc2init : Vec F S128x128 .f32 := View.canon [⟨rS2, k2_pay1 (F := F)⟩]

def acc2step (x0 x1 : Vec F S5000x128 .f32) (a : Vec F S128x128 .f32) : Vec F S128x128 .f32 :=
  View.canon [⟨rS2, k2_pay2 (View.ld x0 rB2) (View.ld x1 rB2) (View.ld a rS2)⟩]

def out2_6 (a : Vec F S128x128 .f32) (x2 : Vec F S128x128 .f32) (x4 : Vec F S128x128 .f32) (x5 : Vec F S128x128 .f32) (x3 : Vec F S1x128 .f32) : Vec F S128x128 .f32 :=
  View.canon [⟨rO2, k2_pay3 (View.ld a rS2) (View.ld x2 rW2) (View.ld x4 rS2) (View.ld x5 rW2) (View.ld x3 rV2)⟩]

abbrev cond2_0 (i : grid2.Coords) : Prop :=
  (Scalar.cmpi .ne (Scalar.extui (Scalar.cmpi .eq (BitVec.ofNat 32 (i 0).val) 0#32)) 0#32) = 1#1
abbrev cond2_1 (i : grid2.Coords) : Prop := k2_cond2 i = 1#1

theorem hcond2_0 : ∀ t : Fin cfg2.N, cond2_0 (grid2.coords t) ↔ t.val = 0 :=
  (by decide +kernel : ∀ t : Fin grid2.N, cond2_0 (grid2.coords t) ↔ t.val = 0)
theorem hcond2_1 : ∀ t : Fin cfg2.N, cond2_1 (grid2.coords t) ↔ t.val = 19 :=
  (by decide +kernel : ∀ t : Fin grid2.N, cond2_1 (grid2.coords t) ↔ t.val = 19)

theorem idle2_6 : ∀ t : Fin grid2.N, t.val ≠ 19 → idle2 6 (grid2.coords t) = true := by decide +kernel
theorem live2_6 : ∀ t : Fin grid2.N, t.val = 19 → idle2 6 (grid2.coords t) = false := by decide +kernel
theorem noflush2_6 : ∀ t : Fin grid2.N, t.val ≠ 19 → (win2 6).flush t = false := by decide +kernel

section Run
variable (c : Dev nD) (E : Set ℕ) (i : grid2.Coords)
  (arg1 : Memref sig .tc .vmem S5000x128 .f32) (harg1 : arg1.IsWhole) (arg2 : Memref sig .tc .vmem S5000x128 .f32) (harg2 : arg2.IsWhole)
  (arg3 : Memref sig .tc .vmem S128x128 .f32) (harg3 : arg3.IsWhole) (arg4 : Memref sig .tc .vmem S1x128 .f32) (harg4 : arg4.IsWhole)
  (arg5 : Memref sig .tc .vmem S128x128 .f32) (harg5 : arg5.IsWhole) (arg6 : Memref sig .tc .vmem S128x128 .f32) (harg6 : arg6.IsWhole)
  (arg7 : Memref sig .tc .vmem S128x128 .f32) (harg7 : arg7.IsWhole) (arg8 : Memref sig .tc .vmem S128x128 .f32) (harg8 : arg8.IsWhole)

-- One accumulation step away from the last point: the accumulator restarts from `acc2init` exactly at the first point.
theorem run2_step (hc1 : ¬cond2_1 i) (x0 x1 : Vec F S5000x128 .f32) (a : Vec F S128x128 .f32) (K : PUnit → sProp 𝕄) :
    iprop(owns (c : Thread nD τ) arg1 fullShare x0 ∗ owns (c : Thread nD τ) arg2 fullShare x1
        ∗ owns (c : Thread nD τ) arg8 fullShare a
        ∗ (iprop(owns (c : Thread nD τ) arg1 fullShare x0 ∗ owns (c : Thread nD τ) arg2 fullShare x1
            ∗ owns (c : Thread nD τ) arg8 fullShare (acc2step x0 x1 (if cond2_0 i then acc2init else a))) -∗ K ⟨⟩))
      ⊢ wp frame (wpE (defs₀ (F := F)) Variants.none c none) E
          (cc2__k2_body i arg1 harg1 arg2 harg2 arg3 harg3 arg4 harg4 arg5 harg5 arg6 harg6 arg7 harg7 arg8 harg8) K := by
  simp only [cc2__k2_body_eq_skeleton]; unfold cc2__k2_body_skel
  unfold owns
  iintro ⟨⟨%f0, %hf0, H0⟩, ⟨%f1, %hf1, H1⟩, ⟨%fs, %hfs, HS⟩, Hk⟩
  subst hf0; subst hf1; subst hfs
  by_cases hc0 : cond2_0 i
  all_goals
    first | rw [if_pos hc0] | rw [if_neg hc0]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact HS
    ipureintro
    sl_unfold_run_names
    first
      | rw [View.read_writes_eq_canon _ _ _ (coverS2 _ _), canon_coverS2, View.readCov_eq_canon_ld _ _ _ (coverS2 _ _)]
      | rw [View.read_writes_eq_canon _ _ _ (coverS2 _ _)]
    rfl

theorem run2_last (hc0 : ¬cond2_0 i) (hc1 : cond2_1 i)
    (x0 x1 : Vec F S5000x128 .f32) (x2 : Vec F S128x128 .f32) (x3 : Vec F S1x128 .f32) (x4 : Vec F S128x128 .f32) (x5 : Vec F S128x128 .f32)
    (a : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 (acc2step x0 x1 a) x2 x4 x5 x3)
            ∗ owns (c : Thread nD τ) arg8 fullShare (acc2step x0 x1 a)) -∗ K ⟨⟩))
      ⊢ wp frame (wpE (defs₀ (F := F)) Variants.none c none) E
          (cc2__k2_body i arg1 harg1 arg2 harg2 arg3 harg3 arg4 harg4 arg5 harg5 arg6 harg6 arg7 harg7 arg8 harg8) K := by
  simp only [cc2__k2_body_eq_skeleton]; unfold cc2__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (coverO2 _ _), View.readCov_eq_canon_ld _ _ _ (coverS2 _ _)]
    rfl
  iexists _; isplitr
  swap; · iexact HS
  ipureintro
  sl_unfold_run_names
  rw [View.read_writes_eq_canon _ _ _ (coverS2 _ _)]
  rfl

end Run

section Region
variable (V : (c : Dev nD) → (b : Ref sig .tc) → Buf (Elt F) ((c : Thread nD τ).loc b)) (c : Dev nD)

def iblk2 (w : Fin cfg2.W) (t : Fin cfg2.N) : ((cfg2.win w).xblock (cfg2.grid.coords t)).Idx → Elt F (cfg2.win w).elt :=
  ((cfg2.win w).blk t).view.read (Elt F) (V c (Pipeline.arrRef spec2 w))

def acc2 : (n : ℕ) → n < cfg2.N → Vec F S128x128 .f32
  | 0, h => acc2step (iblk2 V c 0 ⟨0, h⟩) (iblk2 V c 1 ⟨0, h⟩) acc2init
  | n + 1, h => acc2step (iblk2 V c 0 ⟨n + 1, h⟩) (iblk2 V c 1 ⟨n + 1, h⟩) (acc2 n (Nat.lt_of_succ_lt h))

theorem acc2_zero (h : 0 < cfg2.N) :
    acc2 V c 0 h = acc2step (iblk2 V c 0 ⟨0, h⟩) (iblk2 V c 1 ⟨0, h⟩) acc2init := by
  rw [acc2]

theorem acc2_succ (n : ℕ) (h : n + 1 < cfg2.N) :
    acc2 V c (n + 1) h = acc2step (iblk2 V c 0 ⟨n + 1, h⟩) (iblk2 V c 1 ⟨n + 1, h⟩) (acc2 V c n (Nat.lt_of_succ_lt h)) := by
  rw [acc2]

-- The invariant between steps: the accumulator holds `X`, and everything else is carried along unchanged.
def Inv2 (X : sProp 𝕄) : sProp 𝕄 :=
  iprop(iprop(X ∗ Pipeline.scopedRestBut (Ix := Unit) (Name := ℕ) (U := UR sig nD τ) (Lvl := ℕ) (Val := Elt F) spec2 c [cc2_scratch0]) ∗ (∃ r, prngReg c r))

def Phi2 : (n : ℕ) → n ≤ cfg2.N → sProp 𝕄
  | 0, _ => Pipeline.ΦA spec2 c
  | n + 1, hn => Inv2 c (owns (c : Thread nD τ) scM2 fullShare (acc2 V c n hn))

theorem Phi2_zero (n : ℕ) (h : n ≤ cfg2.N) (hz : n = 0) : Phi2 V c n h = Pipeline.ΦA spec2 c := by
  subst hz; rfl

theorem Phi2_pos (n : ℕ) (h : n ≤ cfg2.N) (hz : n ≠ 0) :
    Phi2 V c n h = Inv2 c (owns (c : Thread nD τ) scM2 fullShare (acc2 V c (n - 1) (by omega))) := by
  cases n with
  | zero => exact absurd rfl hz
  | succ n => rfl

theorem PhiA2_eq : (Pipeline.ΦA spec2 c : sProp 𝕄) = Inv2 c iprop(∃ d, owns (c : Thread nD τ) scM2 fullShare d) := by
  unfold Pipeline.ΦA Inv2; rw [scopedRest2_split]; simp only [scM2, owns_whole]; try rfl

def dat2 : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (acc2 V c t.val t.isLt) (iblk2 V c 2 t) (iblk2 V c 4 t) (iblk2 V c 5 t) (iblk2 V c 3 t)
  Φ t := Phi2 V c t.val (Nat.le_of_lt_succ t.isLt)
  q _ := fullShare
  owed _ := 0

theorem A_eq2 (w : Fin cfg2.W) : (dat2 V c).A w = V c (Pipeline.arrRef spec2 w) := rfl

theorem q_eq2 (w : Fin cfg2.W) : (dat2 V c).q w = fullShare := rfl

theorem owed_eq2 (t : Fin (cfg2.N + 1)) : (dat2 V c).owed t = 0 := rfl

theorem recorded_eq2 (t : Fin (cfg2.N + 1)) : (dat2 V c).recorded t = Set.univ := rfl

theorem after2_6_last (t : Fin cfg2.N) (h : t.val = 19) :
    (dat2 V c).after 6 t = out2_6 (acc2 V c 19 (by rw [show cfg2.N = 20 from N_2]; omega)) (iblk2 V c 2 t) (iblk2 V c 4 t) (iblk2 V c 5 t) (iblk2 V c 3 t) := by
  obtain ⟨n, hn⟩ := t; dsimp only at h; subst h; rfl

theorem acc2_first (t : Fin cfg2.N) (hz : t.val = 0) :
    acc2 V c t.val t.isLt = acc2step ((dat2 V c).after 0 t) ((dat2 V c).after 1 t) acc2init := by
  obtain ⟨_ | n, hn⟩ := t
  exacts [acc2_zero V c hn, absurd hz (Nat.succ_ne_zero n)]

theorem acc2_pos (t : Fin cfg2.N) (hz : t.val ≠ 0) :
    acc2 V c t.val t.isLt = acc2step ((dat2 V c).after 0 t) ((dat2 V c).after 1 t)
      (acc2 V c (t.val - 1) (Nat.lt_of_le_of_lt (Nat.sub_le _ _) t.isLt)) := by
  obtain ⟨_ | n, hn⟩ := t
  exacts [absurd rfl hz, acc2_succ V c n hn]

theorem before2_0 (t : Fin cfg2.N) (d) : (dat2 V c).before 0 t d = (dat2 V c).after 0 t :=
  (dat2 V c).before_in_eq_fetched 0 rfl (fun _ => rfl) (fun _ _ _ => rfl) (fun _ => rfl) t d
theorem before2_1 (t : Fin cfg2.N) (d) : (dat2 V c).before 1 t d = (dat2 V c).after 1 t :=
  (dat2 V c).before_in_eq_fetched 1 rfl (fun _ => rfl) (fun _ _ _ => rfl) (fun _ => rfl) t d
theorem before2_2 (t : Fin cfg2.N) (d) : (dat2 V c).before 2 t d = (dat2 V c).after 2 t :=
  (dat2 V c).before_in_eq_fetched 2 rfl (fun _ => rfl) (fun _ _ _ => rfl) (fun _ => rfl) t d
theorem before2_3 (t : Fin cfg2.N) (d) : (dat2 V c).before 3 t d = (dat2 V c).after 3 t :=
  (dat2 V c).before_in_eq_fetched 3 rfl (fun _ => rfl) (fun _ _ _ => rfl) (fun _ => rfl) t d
theorem before2_4 (t : Fin cfg2.N) (d) : (dat2 V c).before 4 t d = (dat2 V c).after 4 t :=
  (dat2 V c).before_in_eq_fetched 4 rfl (fun _ => rfl) (fun _ _ _ => rfl) (fun _ => rfl) t d
theorem before2_5 (t : Fin cfg2.N) (d) : (dat2 V c).before 5 t d = (dat2 V c).after 5 t :=
  (dat2 V c).before_in_eq_fetched 5 rfl (fun _ => rfl) (fun _ _ _ => rfl) (fun _ => rfl) t d

theorem body_obligation2 : BodyObligation (dat2 (F := F) V c) (defs₀ (F := F)) Variants.none () Set.univ := fun t => by
  rw [bigSep_W2, bigSep_W2]
  dsimp only
  show _ ⊢ wp _ _ _ (bodyAt2 (F := F) t) _
  simp only [before2_0, before2_1, before2_2, before2_3, before2_4, before2_5]
  rw [show (dat2 V c).owesAt () t.succ = (dat2 V c).owesAt () t.castSucc from rfl,
    show (dat2 V c).Φ t.succ = Inv2 c (owns (c : Thread nD τ) scM2 fullShare (acc2 V c t.val t.isLt)) from rfl,
    show (dat2 V c).Φ t.castSucc = Phi2 V c t.val (Nat.le_of_lt t.isLt) from rfl]
  by_cases hz : t.val = 0
  · have h19 : t.val ≠ 19 := by omega
    simp only [idle2_6 t h19, noflush2_6 t h19]
    rw [Phi2_zero V c _ _ hz, PhiA2_eq, acc2_first V c t hz]
    unfold Inv2
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, H6⟩
    iapply (run2_step c Set.univ (grid2.coords t) _ _ _ _ _ _ _ _ _ _ _ _ _ _ _ _ (fun h => h19 ((hcond2_1 t).mp h)) _ _ ds _)
    rw [if_pos ((hcond2_0 t).mpr hz)]
    isplitl [H0]; · iexact H0
    isplitl [H1]; · iexact H1
    isplitl [HS]; · iexact HS
    iintro ⟨H0, H1, HS⟩
    iframe
  · have hc0 : ¬cond2_0 (grid2.coords t) := fun h => hz ((hcond2_0 t).mp h)
    rw [Phi2_pos V c _ _ hz, acc2_pos V c t hz]
    unfold Inv2
    by_cases h19 : t.val = 19
    · simp only [live2_6 t h19]
      rw [show (dat2 V c).after 6 t = out2_6 (acc2 V c t.val t.isLt) ((dat2 V c).after 2 t) ((dat2 V c).after 4 t)
        ((dat2 V c).after 5 t) ((dat2 V c).after 3 t) from rfl, acc2_pos V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run2_last c Set.univ (grid2.coords t) _ _ _ _ _ _ _ _ _ _ _ _ _ _ _ _ hc0 ((hcond2_1 t).mpr h19) _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      iframe
    · simp only [idle2_6 t h19, noflush2_6 t h19]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (run2_step c Set.univ (grid2.coords t) _ _ _ _ _ _ _ _ _ _ _ _ _ _ _ _ (fun h => h19 ((hcond2_1 t).mp h)) _ _ _ _)
      rw [if_neg hc0]
      isplitl [H0]; · iexact H0
      isplitl [H1]; · iexact H1
      isplitl [HS]; · iexact HS
      iintro ⟨H0, H1, HS⟩
      iframe

theorem hin2 : (Pipeline.ΦA spec2 c : sProp 𝕄) ⊢ (dat2 V c).Φ 0 := .rfl

theorem hout2 : (dat2 V c).Φ (Fin.last cfg2.N) ⊢ (Pipeline.ΦA spec2 c : sProp 𝕄) := by
  rw [show (dat2 V c).Φ (Fin.last cfg2.N) = Inv2 c (owns (c : Thread nD τ) scM2 fullShare (acc2 V c 19 (by decide))) from rfl, PhiA2_eq]
  unfold Inv2
  iintro ⟨⟨HS, HR⟩, Hg⟩
  iframe
  iexists _; iexact HS

end Region

end Cert.KernelIdeal.Hand

end
-- ==== Proof.KI.R3.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rowsR3 : Rect S5000x128 := Rect.unit (s := S5000x128) ![0, 0] S5000x128.size inb_S5000x128_S5000x128_0_0
abbrev wgtR3 : Rect S128x64 := Rect.unit (s := S128x64) ![0, 0] S128x64.size inb_S128x64_S128x64_0_0
abbrev biasR3 : Rect S1x64 := Rect.unit (s := S1x64) ![0, 0] S1x64.size inb_S1x64_S1x64_0_0
abbrev outR3 : Rect S5000x64 := Rect.unit (s := S5000x64) ![0, 0] S5000x64.size inb_S5000x64_S5000x64_0_0

def out3_6 (x0 : Vec F S5000x128 .f32) (x2 : Vec F S128x64 .f32) :
    Vec F S5000x64 .f32 :=
  View.canon [⟨outR3, k3_pay2 (View.ld x0 rowsR3) (View.ld x2 wgtR3)⟩]

def out3_7 (x0 x1 : Vec F S5000x128 .f32) (x3 x4 : Vec F S128x64 .f32) (x5 : Vec F S1x64 .f32) :
    Vec F S5000x64 .f32 :=
  View.canon [⟨outR3, k3_pay3 (View.ld x0 rowsR3) (View.ld x1 rowsR3) (View.ld x3 wgtR3) (View.ld x4 wgtR3) (View.ld x5 biasR3)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 2 t)
    | ⟨7, _⟩ => out3_7 (iblk3 V c 0 t) (iblk3 V c 1 t) (iblk3 V c 3 t) (iblk3 V c 4 t) (iblk3 V c 5 t)
  Φ _ := Pipeline.ΦA spec3 c
  q _ := fullShare
  owed _ := 0

theorem A_eq3 (c : Dev nD) (w : Fin cfg3.W) : (dat3 V c).A w = V c (Pipeline.arrRef spec3 w) := rfl

theorem q_eq3 (c : Dev nD) (w : Fin cfg3.W) : (dat3 V c).q w = fullShare := rfl

theorem owed_eq3 (c : Dev nD) (t : Fin (cfg3.N + 1)) : (dat3 V c).owed t = 0 := rfl

theorem recorded_eq3 (c : Dev nD) (t : Fin (cfg3.N + 1)) : (dat3 V c).recorded t = Set.univ := rfl

theorem after3_6 (c : Dev nD) (t : Fin cfg3.N) :
    (dat3 V c).after 6 t = out3_6 (iblk3 V c 0 t) (iblk3 V c 2 t) := by dsimp only [dat3]

theorem after3_7 (c : Dev nD) (t : Fin cfg3.N) :
    (dat3 V c).after 7 t = out3_7 (iblk3 V c 0 t) (iblk3 V c 1 t) (iblk3 V c 3 t) (iblk3 V c 4 t) (iblk3 V c 5 t) := by
  dsimp only [dat3]

theorem before3 (c : Dev nD) (t : Fin cfg3.N) :
    ∀ (w : Fin cfg3.W) (d), w.1 < 6 → (dat3 V c).before w t d = (dat3 V c).after w t
  | ⟨0, _⟩, d, _ | ⟨1, _⟩, d, _ | ⟨2, _⟩, d, _ | ⟨3, _⟩, d, _ | ⟨4, _⟩, d, _ | ⟨5, _⟩, d, _ =>
    ((dat3 V c).before_in_eq_fetched _ rfl (fun _ => rfl) (fun _ _ _ => rfl) (fun _ => rfl) t d).trans rfl
  | ⟨_ + 6, _⟩, _, h => absurd h (Nat.not_lt.2 (Nat.le_add_left _ _))

theorem sound_kernel3 {c : Dev nD} {E : Set ℕ} {i : grid3.Coords}
    {a0 a1 : Memref sig .tc .vmem S5000x128 .f32} {a2 a3 a4 : Memref sig .tc .vmem S128x64 .f32} {a5 : Memref sig .tc .vmem S1x64 .f32}
    {a6 a7 : Memref sig .tc .vmem S5000x64 .f32} {h0 : a0.IsWhole} {h1 : a1.IsWhole} {h2 : a2.IsWhole} {h3 : a3.IsWhole}
    {h4 : a4.IsWhole} {h5 : a5.IsWhole} {h6 : a6.IsWhole} {h7 : a7.IsWhole}
    {x0 x1 : Vec F S5000x128 .f32} {x2 x3 x4 : Vec F S128x64 .f32} {x5 : Vec F S1x64 .f32}
    {d6 d7 : Vec F S5000x64 .f32} {K : PUnit → sProp 𝕄} :
    iprop(owns c.tc a0 fullShare x0 ∗ owns c.tc a1 fullShare x1
        ∗ owns c.tc a2 fullShare x2 ∗ owns c.tc a3 fullShare x3
        ∗ owns c.tc a4 fullShare x4 ∗ owns c.tc a5 fullShare x5
        ∗ owns c.tc a6 fullShare d6 ∗ owns c.tc a7 fullShare d7
        ∗ (iprop(owns c.tc a0 fullShare x0 ∗ owns c.tc a1 fullShare x1
            ∗ owns c.tc a2 fullShare x2 ∗ owns c.tc a3 fullShare x3
            ∗ owns c.tc a4 fullShare x4 ∗ owns c.tc a5 fullShare x5
            ∗ owns c.tc a6 fullShare (out3_6 x0 x2)
            ∗ owns c.tc a7 fullShare (out3_7 x0 x1 x3 x4 x5)) -∗ K ⟨⟩))
      ⊢ wp frame (wpE (defs₀ (F := F)) Variants.none c none) E (cc3__k1_body i a0 h0 a1 h1 a2 h2 a3 h3 a4 h4 a5 h5 a6 h6 a7 h7) K := by
  simp only [cc3__k1_body_eq_skeleton]; unfold cc3__k1_body_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩,
    ⟨%f6, -, H6⟩, ⟨%f7, -, H7⟩, Hk⟩
  subst e0 e1 e2 e3 e4 e5
  sl_exec
  sl_step
  iapply Hk
  isplitl [H0]; · iexists f0; isplitr <;> first | iassumption | (ipureintro; rfl)
  isplitl [H1]; · iexists f1; isplitr <;> first | iassumption | (ipureintro; rfl)
  isplitl [H2]; · iexists f2; isplitr <;> first | iassumption | (ipureintro; rfl)
  isplitl [H3]; · iexists f3; isplitr <;> first | iassumption | (ipureintro; rfl)
  isplitl [H4]; · iexists f4; isplitr <;> first | iassumption | (ipureintro; rfl)
  isplitl [H5]; · iexists f5; isplitr <;> first | iassumption | (ipureintro; rfl)
  isplitl [H6] <;>
    (iexists _; isplitr; swap; iassumption; ipureintro; exact View.read_writes_eq_canon _ _ _ (View.cover_of_tiled _ S5000x64.size (by rfl)))

theorem body_obligation3 (c : Dev nD) : BodyObligation (dat3 (F := F) V c) (defs₀ (F := F)) Variants.none () Set.univ := fun t => by
  rw [bigSep_W3, bigSep_W3]
  change _ ⊢ wp _ _ _ (bodyAt3 t) _
  simp (disch := decide) only [before3]
  dsimp only [dat3]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply sound_kernel3
  iframe H0 H1 H2 H3 H4 H5 H6 H7
  iintro H
  iframe HΦ H
  iexact Ho

theorem hin3 (c : Dev nD) : (Pipeline.ΦA spec3 c : sProp 𝕄) ⊢ (dat3 V c).Φ 0 := Entails.of_eq rfl

theorem hout3 (c : Dev nD) : (dat3 V c).Φ (Fin.last cfg3.N) ⊢ (Pipeline.ΦA spec3 c : sProp 𝕄) := Entails.of_eq rfl

end Cert.KernelIdeal.Hand

end
-- ==== Proof.KI.R4.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.TableIdle
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen

variable {F : FTy → Type} [FloatOps F] (V : (c : Dev nD) → (b : Ref sig .tc) → Buf (Elt F) ((c : Thread nD τ).loc b)) (c : Dev nD)

local notation "𝕄" => MT nD τ sig Unit (Elt F) ℕ (UR sig nD τ) ℕ

def iblk4 (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev full4_mat : Rect S5000x64 := Rect.unit (s := S5000x64) ![0, 0] S5000x64.size inb_S5000x64_S5000x64_0_0
abbrev full4_col : Rect S5000x1 := Rect.unit (s := S5000x1) ![0, 0] S5000x1.size inb_S5000x1_S5000x1_0_0
abbrev full4_row : Rect S1x64 := Rect.unit (s := S1x64) ![0, 0] S1x64.size inb_S1x64_S1x64_0_0

def out4_5 (a h : Vec F S5000x64 .f32) (s : Vec F S5000x1 .f32) (b : Vec F S1x64 .f32) (p : Vec F S5000x64 .f32) :
    Vec F S5000x64 .f32 :=
  View.canon [⟨full4_mat, k4_pay1 (View.ld a full4_mat) (View.ld s full4_col) (View.ld h full4_mat) (View.ld b full4_row) (View.ld p full4_mat)⟩]

theorem run4 {E : Set ℕ} {i : grid4.Coords} {m0 m1 m4 m5 : Memref sig .tc .vmem S5000x64 .f32}
    {m2 : Memref sig .tc .vmem S5000x1 .f32} {m3 : Memref sig .tc .vmem S1x64 .f32}
    {w0 : m0.IsWhole} {w1 : m1.IsWhole} {w2 : m2.IsWhole} {w3 : m3.IsWhole} {w4 : m4.IsWhole} {w5 : m5.IsWhole}
    (a h : Vec F S5000x64 .f32) (s : Vec F S5000x1 .f32) (b : Vec F S1x64 .f32) (p : Vec F S5000x64 .f32)
    {K : PUnit → sProp 𝕄} :
    iprop(owns (c : Thread nD τ) m0 fullShare a ∗ owns (c : Thread nD τ) m1 fullShare h ∗ owns (c : Thread nD τ) m2 fullShare s
        ∗ owns (c : Thread nD τ) m3 fullShare b ∗ owns (c : Thread nD τ) m4 fullShare p
        ∗ (∃ d, owns (c : Thread nD τ) m5 fullShare d)
        ∗ (iprop(owns (c : Thread nD τ) m0 fullShare a ∗ owns (c : Thread nD τ) m1 fullShare h ∗ owns (c : Thread nD τ) m2 fullShare s
            ∗ owns (c : Thread nD τ) m3 fullShare b ∗ owns (c : Thread nD τ) m4 fullShare p
            ∗ owns (c : Thread nD τ) m5 fullShare (out4_5 a h s b p)) -∗ K ⟨⟩))
      ⊢ wp frame (wpE (defs₀ (F := F)) Variants.none c none) E (cc4__k3_body i m0 w0 m1 w1 m2 w2 m3 w3 m4 w4 m5 w5) K := by
  simp only [cc4__k3_body_eq_skeleton]; unfold cc4__k3_body_skel
  rw [owns_eq_rep (c : Thread nD τ) m0, owns_eq_rep (c : Thread nD τ) m1, owns_eq_rep (c : Thread nD τ) m2, owns_eq_rep (c : Thread nD τ) m3, owns_eq_rep (c : Thread nD τ) m4]
  unfold owns
  iintro ⟨H0, H1, H2, H3, H4, ⟨%d5, %f5, -, H5⟩, Hk⟩
  sl_exec
  sl_step
  iapply Hk
  iframe H0 H1 H2 H3 H4
  iexists _; isplitr
  swap
  · iexact H5
  ipureintro
  simp only [View.readAt_rep]
  exact View.read_writes_eq_canon _ _ _ (View.cover_of_tiled _ S5000x64.size (by rfl))

def dat4 : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

theorem A_eq4 (w : Fin cfg4.W) : (dat4 V c).A w = V c (Pipeline.arrRef spec4 w) := rfl

theorem q_eq4 (w : Fin cfg4.W) : (dat4 V c).q w = fullShare := rfl

theorem owed_eq4 (t : Fin (cfg4.N + 1)) : (dat4 V c).owed t = 0 := rfl

theorem recorded_eq4 (t : Fin (cfg4.N + 1)) : (dat4 V c).recorded t = Set.univ := rfl

theorem after4_5 (t : Fin cfg4.N) :
    (dat4 V c).after 5 t = out4_5 (iblk4 V c 0 t) (iblk4 V c 1 t) (iblk4 V c 2 t) (iblk4 V c 3 t) (iblk4 V c 4 t) := by
  dsimp only [dat4]

theorem before4 (w : Fin cfg4.W) (hw : w ≠ 5) (t : Fin cfg4.N) (d) : (dat4 V c).before w t d = (dat4 V c).after w t :=
  match w, hw with
  | ⟨0, _⟩, _ | ⟨1, _⟩, _ | ⟨2, _⟩, _ | ⟨3, _⟩, _ | ⟨4, _⟩, _ =>
    (dat4 V c).before_in_eq_fetched _ rfl (fun _ => rfl) (fun _ _ _ => rfl) (fun _ => rfl) t d
  | ⟨5, _⟩, hw => absurd rfl hw

theorem hin4 : (Pipeline.ΦA spec4 c : sProp 𝕄) ⊢ (dat4 V c).Φ 0 := .rfl

theorem hout4 : (dat4 V c).Φ (Fin.last cfg4.N) ⊢ (Pipeline.ΦA spec4 c : sProp 𝕄) := .rfl

theorem body_obligation4 : BodyObligation (dat4 (F := F) V c) (defs₀ (F := F)) Variants.none () Set.univ := fun t => by
  show iprop(_ ∗ _ ∗ bigSep Finset.univ fun w => iprop(∃ d, owns _ _ _ ((dat4 V c).before w t d)))
    ⊢ wp frame _ _ (bodyAt4 t) fun _ => iprop(_ ∗ _ ∗ bigSep Finset.univ fun w => owns _ _ _ ((dat4 V c).after w t))
  rw [bigSep_W4, bigSep_W4, show (dat4 V c).owesAt () t.succ = (dat4 V c).owesAt () t.castSucc from rfl]
  simp (disch := decide) only [before4 V c]
  dsimp only [dat4]
  iintro ⟨HΦ, Ho, ⟨%_, H0⟩, ⟨%_, H1⟩, ⟨%_, H2⟩, ⟨%_, H3⟩, ⟨%_, H4⟩, %_, H5⟩
  iapply (run4 c (iblk4 V c 0 t) (iblk4 V c 1 t) (iblk4 V c 2 t) (iblk4 V c 3 t) (iblk4 V c 4 t))
  iframe H0 H1 H2 H3 H4
  isplitl [H5]; · iexists _; iexact H5
  iintro ⟨H0, H1, H2, H3, H4, H5⟩
  iframe

end Cert.KernelIdeal.Hand

end
-- ==== Proof.KI.R5.lean ====
import proofs.«430514_j6622839570447_1_alg».proof.Proof.Gen.KernelIdeal.Launch
import proofs.«430514_j6622839570447_1_alg».proof.Proof.Gen.KernelIdeal.Skeleton
import proofs.«430514_j6622839570447_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rB5 : Rect S5000x128 := Rect.unit (s := S5000x128) ![0, 0] S5000x128.size inb_S5000x128_S5000x128_0_0
abbrev rS5 : Rect S128x128 := Rect.unit (s := S128x128) ![0, 0] S128x128.size inb_S128x128_S128x128_0_0
abbrev rW5 : Rect S128x64 := Rect.unit (s := S128x64) ![0, 0] S128x64.size inb_S128x64_S128x64_0_0
abbrev rO5 : Rect S128x64 := Rect.unit (s := S128x64) ![0, 0] S128x64.size inb_S128x64_S128x64_0_0
abbrev rV5 : Rect S1x64 := Rect.unit (s := S1x64) ![0, 0] S1x64.size inb_S1x64_S1x64_0_0

abbrev scM5 : Memref sig .tc .vmem S128x128 .f32 := Memref.whole cc5_scratch0

theorem zero5 : (![0, 0] : Fin 2 → ℕ) = fun _ => 0 := funext fun a => by fin_cases a <;> rfl

theorem coverS5 (p : rS5.shape.Idx → Elt F .f32) (L : List (View.Piece (Elt F) S128x128 .f32)) (y : S128x128.Idx) :
    ∃ pc ∈ ((⟨rS5, p⟩ : View.Piece (Elt F) S128x128 .f32) :: L), y ∈ pc.1.set :=
  ⟨_, List.mem_cons_self, View.mem_set_unit_zero zero5 inb_S128x128_S128x128_0_0 y⟩

theorem coverO5 (p : rO5.shape.Idx → Elt F .f32) (L : List (View.Piece (Elt F) S128x64 .f32)) (y : S128x64.Idx) :
    ∃ pc ∈ ((⟨rO5, p⟩ : View.Piece (Elt F) S128x64 .f32) :: L), y ∈ pc.1.set :=
  ⟨_, List.mem_cons_self, View.mem_set_unit_zero zero5 inb_S128x64_S128x64_0_0 y⟩

theorem canon_coverS5 (p : rS5.shape.Idx → Elt F .f32) (L : List (View.Piece (Elt F) S128x128 .f32)) :
    View.canon ((⟨rS5, p⟩ : View.Piece (Elt F) S128x128 .f32) :: L) = View.canon [⟨rS5, p⟩] :=
  (View.canon_cons_unit_zero zero5 _ p L).trans (View.canon_unit_zero zero5 _ p).symm

def acc5init : Vec F S128x128 .f32 := View.canon [⟨rS5, k5_pay1 (F := F)⟩]

def acc5step (x0 x1 : Vec F S5000x128 .f32) (a : Vec F S128x128 .f32) : Vec F S128x128 .f32 :=
  View.canon [⟨rS5, k5_pay2 (View.ld x0 rB5) (View.ld x1 rB5) (View.ld a rS5)⟩]

def out5_6 (a : Vec F S128x128 .f32) (x2 : Vec F S128x64 .f32) (x4 : Vec F S128x128 .f32) (x5 : Vec F S128x64 .f32) (x3 : Vec F S1x64 .f32) : Vec F S128x64 .f32 :=
  View.canon [⟨rO5, k5_pay3 (View.ld a rS5) (View.ld x2 rW5) (View.ld x4 rS5) (View.ld x5 rW5) (View.ld x3 rV5)⟩]

abbrev cond5_0 (i : grid5.Coords) : Prop :=
  (Scalar.cmpi .ne (Scalar.extui (Scalar.cmpi .eq (BitVec.ofNat 32 (i 0).val) 0#32)) 0#32) = 1#1
abbrev cond5_1 (i : grid5.Coords) : Prop := k5_cond2 i = 1#1

theorem hcond5_0 : ∀ t : Fin cfg5.N, cond5_0 (grid5.coords t) ↔ t.val = 0 :=
  (by decide +kernel : ∀ t : Fin grid5.N, cond5_0 (grid5.coords t) ↔ t.val = 0)
theorem hcond5_1 : ∀ t : Fin cfg5.N, cond5_1 (grid5.coords t) ↔ t.val = 19 :=
  (by decide +kernel : ∀ t : Fin grid5.N, cond5_1 (grid5.coords t) ↔ t.val = 19)

theorem idle5_6 : ∀ t : Fin grid5.N, t.val ≠ 19 → idle5 6 (grid5.coords t) = true := by decide +kernel
theorem live5_6 : ∀ t : Fin grid5.N, t.val = 19 → idle5 6 (grid5.coords t) = false := by decide +kernel
theorem noflush5_6 : ∀ t : Fin grid5.N, t.val ≠ 19 → (win5 6).flush t = false := by decide +kernel

section Run
variable (c : Dev nD) (E : Set ℕ) (i : grid5.Coords)
  (arg1 : Memref sig .tc .vmem S5000x128 .f32) (harg1 : arg1.IsWhole) (arg2 : Memref sig .tc .vmem S5000x128 .f32) (harg2 : arg2.IsWhole)
  (arg3 : Memref sig .tc .vmem S128x64 .f32) (harg3 : arg3.IsWhole) (arg4 : Memref sig .tc .vmem S1x64 .f32) (harg4 : arg4.IsWhole)
  (arg5 : Memref sig .tc .vmem S128x128 .f32) (harg5 : arg5.IsWhole) (arg6 : Memref sig .tc .vmem S128x64 .f32) (harg6 : arg6.IsWhole)
  (arg7 : Memref sig .tc .vmem S128x64 .f32) (harg7 : arg7.IsWhole) (arg8 : Memref sig .tc .vmem S128x128 .f32) (harg8 : arg8.IsWhole)

theorem run5_step (hc1 : ¬cond5_1 i) (x0 x1 : Vec F S5000x128 .f32) (a : Vec F S128x128 .f32) (K : PUnit → sProp 𝕄) :
    iprop(owns (c : Thread nD τ) arg1 fullShare x0 ∗ owns (c : Thread nD τ) arg2 fullShare x1
        ∗ owns (c : Thread nD τ) arg8 fullShare a
        ∗ (iprop(owns (c : Thread nD τ) arg1 fullShare x0 ∗ owns (c : Thread nD τ) arg2 fullShare x1
            ∗ owns (c : Thread nD τ) arg8 fullShare (acc5step x0 x1 (if cond5_0 i then acc5init else a))) -∗ K ⟨⟩))
      ⊢ wp frame (wpE (defs₀ (F := F)) Variants.none c none) E
          (cc5__k2_body i arg1 harg1 arg2 harg2 arg3 harg3 arg4 harg4 arg5 harg5 arg6 harg6 arg7 harg7 arg8 harg8) K := by
  simp only [cc5__k2_body_eq_skeleton]; unfold cc5__k2_body_skel
  unfold owns
  iintro ⟨⟨%f0, %hf0, H0⟩, ⟨%f1, %hf1, H1⟩, ⟨%fs, %hfs, HS⟩, Hk⟩
  subst hf0; subst hf1; subst hfs
  by_cases hc0 : cond5_0 i
  all_goals
    first | rw [if_pos hc0] | rw [if_neg hc0]
    sl_exec (disch := first | exact hc0 | exact hc1)
    sl_step
    iapply Hk
    isplitl [H0]
    · iexists f0; isplitr; · ipureintro; rfl
      iexact H0
    isplitl [H1]
    · iexists f1; isplitr; · ipureintro; rfl
      iexact H1
    iexists _; isplitr
    swap; · iexact HS
    ipureintro
    sl_unfold_run_names
    first
      | rw [View.read_writes_eq_canon _ _ _ (coverS5 _ _), canon_coverS5, View.readCov_eq_canon_ld _ _ _ (coverS5 _ _)]
      | rw [View.read_writes_eq_canon _ _ _ (coverS5 _ _)]
    rfl

theorem run5_last (hc0 : ¬cond5_0 i) (hc1 : cond5_1 i)
    (x0 x1 : Vec F S5000x128 .f32) (x2 : Vec F S128x64 .f32) (x3 : Vec F S1x64 .f32) (x4 : Vec F S128x128 .f32) (x5 : Vec F S128x64 .f32)
    (a : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ owns (c : Thread nD τ) arg8 fullShare a
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 (acc5step x0 x1 a) x2 x4 x5 x3)
            ∗ owns (c : Thread nD τ) arg8 fullShare (acc5step x0 x1 a)) -∗ K ⟨⟩))
      ⊢ wp frame (wpE (defs₀ (F := F)) Variants.none c none) E
          (cc5__k2_body i arg1 harg1 arg2 harg2 arg3 harg3 arg4 harg4 arg5 harg5 arg6 harg6 arg7 harg7 arg8 harg8) K := by
  simp only [cc5__k2_body_eq_skeleton]; unfold cc5__k2_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%fs, %hfs, HS⟩, Hk⟩
  subst hf0; subst hf1; subst hf2; subst hf3; subst hf4; subst hf5; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (coverO5 _ _), View.readCov_eq_canon_ld _ _ _ (coverS5 _ _)]
    rfl
  iexists _; isplitr
  swap; · iexact HS
  ipureintro
  sl_unfold_run_names
  rw [View.read_writes_eq_canon _ _ _ (coverS5 _ _)]
  rfl

end Run

section Region
variable (V : (c : Dev nD) → (b : Ref sig .tc) → Buf (Elt F) ((c : Thread nD τ).loc b)) (c : Dev nD)

def iblk5 (w : Fin cfg5.W) (t : Fin cfg5.N) : ((cfg5.win w).xblock (cfg5.grid.coords t)).Idx → Elt F (cfg5.win w).elt :=
  ((cfg5.win w).blk t).view.read (Elt F) (V c (Pipeline.arrRef spec5 w))

def acc5 : (n : ℕ) → n < cfg5.N → Vec F S128x128 .f32
  | 0, h => acc5step (iblk5 V c 0 ⟨0, h⟩) (iblk5 V c 1 ⟨0, h⟩) acc5init
  | n + 1, h => acc5step (iblk5 V c 0 ⟨n + 1, h⟩) (iblk5 V c 1 ⟨n + 1, h⟩) (acc5 n (Nat.lt_of_succ_lt h))

theorem acc5_zero (h : 0 < cfg5.N) :
    acc5 V c 0 h = acc5step (iblk5 V c 0 ⟨0, h⟩) (iblk5 V c 1 ⟨0, h⟩) acc5init := by
  rw [acc5]

theorem acc5_succ (n : ℕ) (h : n + 1 < cfg5.N) :
    acc5 V c (n + 1) h = acc5step (iblk5 V c 0 ⟨n + 1, h⟩) (iblk5 V c 1 ⟨n + 1, h⟩) (acc5 V c n (Nat.lt_of_succ_lt h)) := by
  rw [acc5]

def Inv5 (X : sProp 𝕄) : sProp 𝕄 :=
  iprop(iprop(X ∗ Pipeline.scopedRestBut (Ix := Unit) (Name := ℕ) (U := UR sig nD τ) (Lvl := ℕ) (Val := Elt F) spec5 c [cc5_scratch0]) ∗ (∃ r, prngReg c r))

def Phi5 : (n : ℕ) → n ≤ cfg5.N → sProp 𝕄
  | 0, _ => Pipeline.ΦA spec5 c
  | n + 1, hn => Inv5 c (owns (c : Thread nD τ) scM5 fullShare (acc5 V c n hn))

theorem Phi5_zero (n : ℕ) (h : n ≤ cfg5.N) (hz : n = 0) : Phi5 V c n h = Pipeline.ΦA spec5 c := by
  subst hz; rfl

theorem Phi5_pos (n : ℕ) (h : n ≤ cfg5.N) (hz : n ≠ 0) :
    Phi5 V c n h = Inv5 c (owns (c : Thread nD τ) scM5 fullShare (acc5 V c (n - 1) (by omega))) := by
  cases n with
  | zero => exact absurd rfl hz
  | succ n => rfl

theorem PhiA5_eq : (Pipeline.ΦA spec5 c : sProp 𝕄) = Inv5 c iprop(∃ d, owns (c : Thread nD τ) scM5 fullShare d) := by
  unfold Pipeline.ΦA Inv5; rw [scopedRest5_split]; simp only [scM5, owns_whole]; try rfl

def dat5 : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (acc5 V c t.val t.isLt) (iblk5 V c 2 t) (iblk5 V c 4 t) (iblk5 V c 5 t) (iblk5 V c 3 t)
  Φ t := Phi5 V c t.val (Nat.le_of_lt_succ t.isLt)
  q _ := fullShare
  owed _ := 0

theorem A_eq5 (w : Fin cfg5.W) : (dat5 V c).A w = V c (Pipeline.arrRef spec5 w) := rfl

theorem q_eq5 (w : Fin cfg5.W) : (dat5 V c).q w = fullShare := rfl

theorem owed_eq5 (t : Fin (cfg5.N + 1)) : (dat5 V c).owed t = 0 := rfl

theorem recorded_eq5 (t : Fin (cfg5.N + 1)) : (dat5 V c).recorded t = Set.univ := rfl

theorem after5_6_last (t : Fin cfg5.N) (h : t.val = 19) :
    (dat5 V c).after 6 t = out5_6 (acc5 V c 19 (by rw [show cfg5.N = 20 from N_5]; omega)) (iblk5 V c 2 t) (iblk5 V c 4 t) (iblk5 V c 5 t) (iblk5 V c 3 t) := by
  obtain ⟨n, hn⟩ := t; dsimp only at h; subst h; rfl

theorem acc5_first (t : Fin cfg5.N) (hz : t.val = 0) :
    acc5 V c t.val t.isLt = acc5step ((dat5 V c).after 0 t) ((dat5 V c).after 1 t) acc5init := by
  obtain ⟨_ | n, hn⟩ := t
  exacts [acc5_zero V c hn, absurd hz (Nat.succ_ne_zero n)]

theorem acc5_pos (t : Fin cfg5.N) (hz : t.val ≠ 0) :
    acc5 V c t.val t.isLt = acc5step ((dat5 V c).after 0 t) ((dat5 V c).after 1 t)
      (acc5 V c (t.val - 1) (Nat.lt_of_le_of_lt (Nat.sub_le _ _) t.isLt)) := by
  obtain ⟨_ | n, hn⟩ := t
  exacts [absurd rfl hz, acc5_succ V c n hn]

theorem before5_0 (t : Fin cfg5.N) (d) : (dat5 V c).before 0 t d = (dat5 V c).after 0 t :=
  (dat5 V c).before_in_eq_fetched 0 rfl (fun _ => rfl) (fun _ _ _ => rfl) (fun _ => rfl) t d
theorem before5_1 (t : Fin cfg5.N) (d) : (dat5 V c).before 1 t d = (dat5 V c).after 1 t :=
  (dat5 V c).before_in_eq_fetched 1 rfl (fun _ => rfl) (fun _ _ _ => rfl) (fun _ => rfl) t d
theorem before5_2 (t : Fin cfg5.N) (d) : (dat5 V c).before 2 t d = (dat5 V c).after 2 t :=
  (dat5 V c).before_in_eq_fetched 2 rfl (fun _ => rfl) (fun _ _ _ => rfl) (fun _ => rfl) t d
theorem before5_3 (t : Fin cfg5.N) (d) : (dat5 V c).before 3 t d = (dat5 V c).after 3 t :=
  (dat5 V c).before_in_eq_fetched 3 rfl (fun _ => rfl) (fun _ _ _ => rfl) (fun _ => rfl) t d
theorem before5_4 (t : Fin cfg5.N) (d) : (dat5 V c).before 4 t d = (dat5 V c).after 4 t :=
  (dat5 V c).before_in_eq_fetched 4 rfl (fun _ => rfl) (fun _ _ _ => rfl) (fun _ => rfl) t d
theorem before5_5 (t : Fin cfg5.N) (d) : (dat5 V c).before 5 t d = (dat5 V c).after 5 t :=
  (dat5 V c).before_in_eq_fetched 5 rfl (fun _ => rfl) (fun _ _ _ => rfl) (fun _ => rfl) t d

theorem body_obligation5 : BodyObligation (dat5 (F := F) V c) (defs₀ (F := F)) Variants.none () Set.univ := fun t => by
  rw [bigSep_W5, bigSep_W5]
  dsimp only
  show _ ⊢ wp _ _ _ (bodyAt5 (F := F) t) _
  simp only [before5_0, before5_1, before5_2, before5_3, before5_4, before5_5]
  rw [show (dat5 V c).owesAt () t.succ = (dat5 V c).owesAt () t.castSucc from rfl,
    show (dat5 V c).Φ t.succ = Inv5 c (owns (c : Thread nD τ) scM5 fullShare (acc5 V c t.val t.isLt)) from rfl,
    show (dat5 V c).Φ t.castSucc = Phi5 V c t.val (Nat.le_of_lt t.isLt) from rfl]
  by_cases hz : t.val = 0
  · have h19 : t.val ≠ 19 := by omega
    simp only [idle5_6 t h19, noflush5_6 t h19]
    rw [Phi5_zero V c _ _ hz, PhiA5_eq, acc5_first V c t hz]
    unfold Inv5
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩, H6⟩
    iapply (run5_step c Set.univ (grid5.coords t) _ _ _ _ _ _ _ _ _ _ _ _ _ _ _ _ (fun h => h19 ((hcond5_1 t).mp h)) _ _ ds _)
    rw [if_pos ((hcond5_0 t).mpr hz)]
    isplitl [H0]; · iexact H0
    isplitl [H1]; · iexact H1
    isplitl [HS]; · iexact HS
    iintro ⟨H0, H1, HS⟩
    iframe
  · have hc0 : ¬cond5_0 (grid5.coords t) := fun h => hz ((hcond5_0 t).mp h)
    rw [Phi5_pos V c _ _ hz, acc5_pos V c t hz]
    unfold Inv5
    by_cases h19 : t.val = 19
    · simp only [live5_6 t h19]
      rw [show (dat5 V c).after 6 t = out5_6 (acc5 V c t.val t.isLt) ((dat5 V c).after 2 t) ((dat5 V c).after 4 t)
        ((dat5 V c).after 5 t) ((dat5 V c).after 3 t) from rfl, acc5_pos V c t hz]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply (run5_last c Set.univ (grid5.coords t) _ _ _ _ _ _ _ _ _ _ _ _ _ _ _ _ hc0 ((hcond5_1 t).mpr h19) _ _ _ _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, H6, HS⟩
      iframe
    · simp only [idle5_6 t h19, noflush5_6 t h19]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply (run5_step c Set.univ (grid5.coords t) _ _ _ _ _ _ _ _ _ _ _ _ _ _ _ _ (fun h => h19 ((hcond5_1 t).mp h)) _ _ _ _)
      rw [if_neg hc0]
      isplitl [H0]; · iexact H0
      isplitl [H1]; · iexact H1
      isplitl [HS]; · iexact HS
      iintro ⟨H0, H1, HS⟩
      iframe

theorem hin5 : (Pipeline.ΦA spec5 c : sProp 𝕄) ⊢ (dat5 V c).Φ 0 := .rfl

theorem hout5 : (dat5 V c).Φ (Fin.last cfg5.N) ⊢ (Pipeline.ΦA spec5 c : sProp 𝕄) := by
  rw [show (dat5 V c).Φ (Fin.last cfg5.N) = Inv5 c (owns (c : Thread nD τ) scM5 fullShare (acc5 V c 19 (by decide))) from rfl, PhiA5_eq]
  unfold Inv5
  iintro ⟨⟨HS, HR⟩, Hg⟩
  iframe
  iexists _; iexact HS

end Region

end Cert.KernelIdeal.Hand

end
-- ==== Proof.KI.Run.lean ====
import proofs.«430514_j6622839570447_1_alg».proof.Proof.KI.R0
import proofs.«430514_j6622839570447_1_alg».proof.Proof.KI.R1
import proofs.«430514_j6622839570447_1_alg».proof.Proof.KI.R2
import proofs.«430514_j6622839570447_1_alg».proof.Proof.KI.R3
import proofs.«430514_j6622839570447_1_alg».proof.Proof.KI.R4
import proofs.«430514_j6622839570447_1_alg».proof.Proof.KI.R5
import proofs.«430514_j6622839570447_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

-- `withArrays` changes `V` only at the arrays of output windows.
theorem withArrays_keep {cfg : Cfg sig Λ₀} {c : Dev nD} (dat : Dat τ (Elt F) Unit ℕ (UR sig nD τ) ℕ cfg c)
    (V : Valuation τ sig (Elt F)) (hinj : Function.Injective (Pipeline.arrRef cfg.spec))
    (hA : ∀ w, dat.A w = V (Proc.devRef .tc (Pipeline.arrRef cfg.spec w))) (b : Ref sig .tc)
    (h : ∀ w, Pipeline.arrRef cfg.spec w = b → (cfg.win w).isOut = false) :
    Pipeline.withArrays cfg.spec c V (dat.arrAt · cfg.N) (Proc.devRef .tc b) = V (Proc.devRef .tc b) := by
  by_cases hb : ∃ w, Pipeline.arrRef cfg.spec w = b
  · obtain ⟨w, rfl⟩ := hb
    exact (Pipeline.withArrays_arr _ hinj c _ _ w).trans ((dat.arrAt_in w (h w rfl) _).trans (hA w))
  · exact Pipeline.withArrays_of_ne _ c _ _ b fun w e => hb ⟨w, e⟩

abbrev W0 (c : Dev nD) : Valuation τ sig (Elt F) := fun b => m (c, b)
abbrev W1 (c : Dev nD) : Valuation τ sig (Elt F) := StableHlo.after hostOps0 (W0 m c)

def W2 (c : Dev nD) : Valuation τ sig (Elt F) :=
  Pipeline.withArrays spec0 c (W1 m c) fun w => (dat0 (fun c b => W1 m c b) c).arrAt w cfg0.N
theorem W2_arr (c : Dev nD) (w : Fin cfg0.W) :
    W2 m c (Proc.devRef .tc (Pipeline.arrRef spec0 w)) = (dat0 (fun c b => W1 m c b) c).arrAt w cfg0.N :=
  Pipeline.withArrays_arr spec0 launch0.win.arr_inj c _ _ w
theorem W2_keep (c : Dev nD) (b : Ref sig .tc) (h : ∀ w, Pipeline.arrRef spec0 w = b → (cfg0.win w).isOut = false) :
    W2 m c (Proc.devRef .tc b) = W1 m c (Proc.devRef .tc b) :=
  withArrays_keep (dat0 (fun c b => W1 m c b) c) (W1 m c) launch0.win.arr_inj (A_eq0 _ c) b h
abbrev W3 (c : Dev nD) : Valuation τ sig (Elt F) := StableHlo.after hostOps1 (W2 m c)

def W4 (c : Dev nD) : Valuation τ sig (Elt F) :=
  Pipeline.withArrays spec1 c (W3 m c) fun w => (dat1 (fun c b => W3 m c b) c).arrAt w cfg1.N
theorem W4_arr (c : Dev nD) (w : Fin cfg1.W) :
    W4 m c (Proc.devRef .tc (Pipeline.arrRef spec1 w)) = (dat1 (fun c b => W3 m c b) c).arrAt w cfg1.N :=
  Pipeline.withArrays_arr spec1 launch1.win.arr_inj c _ _ w
theorem W4_keep (c : Dev nD) (b : Ref sig .tc) (h : ∀ w, Pipeline.arrRef spec1 w = b → (cfg1.win w).isOut = false) :
    W4 m c (Proc.devRef .tc b) = W3 m c (Proc.devRef .tc b) :=
  withArrays_keep (dat1 (fun c b => W3 m c b) c) (W3 m c) launch1.win.arr_inj (A_eq1 _ c) b h
abbrev W5 (c : Dev nD) : Valuation τ sig (Elt F) := StableHlo.after hostOps2 (W4 m c)

def W6 (c : Dev nD) : Valuation τ sig (Elt F) :=
  Pipeline.withArrays spec2 c (W5 m c) fun w => (dat2 (fun c b => W5 m c b) c).arrAt w cfg2.N
theorem W6_arr (c : Dev nD) (w : Fin cfg2.W) :
    W6 m c (Proc.devRef .tc (Pipeline.arrRef spec2 w)) = (dat2 (fun c b => W5 m c b) c).arrAt w cfg2.N :=
  Pipeline.withArrays_arr spec2 launch2.win.arr_inj c _ _ w
theorem W6_keep (c : Dev nD) (b : Ref sig .tc) (h : ∀ w, Pipeline.arrRef spec2 w = b → (cfg2.win w).isOut = false) :
    W6 m c (Proc.devRef .tc b) = W5 m c (Proc.devRef .tc b) :=
  withArrays_keep (dat2 (fun c b => W5 m c b) c) (W5 m c) launch2.win.arr_inj (A_eq2 _ c) b h
abbrev W7 (c : Dev nD) : Valuation τ sig (Elt F) := StableHlo.after hostOps3 (W6 m c)

def W8 (c : Dev nD) : Valuation τ sig (Elt F) :=
  Pipeline.withArrays spec3 c (W7 m c) fun w => (dat3 (fun c b => W7 m c b) c).arrAt w cfg3.N
theorem W8_arr (c : Dev nD) (w : Fin cfg3.W) :
    W8 m c (Proc.devRef .tc (Pipeline.arrRef spec3 w)) = (dat3 (fun c b => W7 m c b) c).arrAt w cfg3.N :=
  Pipeline.withArrays_arr spec3 launch3.win.arr_inj c _ _ w
theorem W8_keep (c : Dev nD) (b : Ref sig .tc) (h : ∀ w, Pipeline.arrRef spec3 w = b → (cfg3.win w).isOut = false) :
    W8 m c (Proc.devRef .tc b) = W7 m c (Proc.devRef .tc b) :=
  withArrays_keep (dat3 (fun c b => W7 m c b) c) (W7 m c) launch3.win.arr_inj (A_eq3 _ c) b h
abbrev W9 (c : Dev nD) : Valuation τ sig (Elt F) := StableHlo.after hostOps4 (W8 m c)

def W10 (c : Dev nD) : Valuation τ sig (Elt F) :=
  Pipeline.withArrays spec4 c (W9 m c) fun w => (dat4 (fun c b => W9 m c b) c).arrAt w cfg4.N
theorem W10_arr (c : Dev nD) (w : Fin cfg4.W) :
    W10 m c (Proc.devRef .tc (Pipeline.arrRef spec4 w)) = (dat4 (fun c b => W9 m c b) c).arrAt w cfg4.N :=
  Pipeline.withArrays_arr spec4 launch4.win.arr_inj c _ _ w
theorem W10_keep (c : Dev nD) (b : Ref sig .tc) (h : ∀ w, Pipeline.arrRef spec4 w = b → (cfg4.win w).isOut = false) :
    W10 m c (Proc.devRef .tc b) = W9 m c (Proc.devRef .tc b) :=
  withArrays_keep (dat4 (fun c b => W9 m c b) c) (W9 m c) launch4.win.arr_inj (A_eq4 _ c) b h
abbrev W11 (c : Dev nD) : Valuation τ sig (Elt F) := StableHlo.after hostOps5 (W10 m c)

def W12 (c : Dev nD) : Valuation τ sig (Elt F) :=
  Pipeline.withArrays spec5 c (W11 m c) fun w => (dat5 (fun c b => W11 m c b) c).arrAt w cfg5.N
theorem W12_arr (c : Dev nD) (w : Fin cfg5.W) :
    W12 m c (Proc.devRef .tc (Pipeline.arrRef spec5 w)) = (dat5 (fun c b => W11 m c b) c).arrAt w cfg5.N :=
  Pipeline.withArrays_arr spec5 launch5.win.arr_inj c _ _ w
theorem W12_keep (c : Dev nD) (b : Ref sig .tc) (h : ∀ w, Pipeline.arrRef spec5 w = b → (cfg5.win w).isOut = false) :
    W12 m c (Proc.devRef .tc b) = W11 m c (Proc.devRef .tc b) :=
  withArrays_keep (dat5 (fun c b => W11 m c b) c) (W11 m c) launch5.win.arr_inj (A_eq5 _ c) b h

theorem W1_of (c : Dev nD) (r : Ref sig .tc) (h : r ∉ hostOps0_W) :
    W1 m c (Proc.devRef .tc r) = W0 m c (Proc.devRef .tc r) :=
  StableHlo.after_of_writes_sub hostOps0 _ hostOps0_writes h
theorem W3_of (c : Dev nD) (r : Ref sig .tc) (h : r ∉ hostOps1_W) :
    W3 m c (Proc.devRef .tc r) = W2 m c (Proc.devRef .tc r) :=
  StableHlo.after_of_writes_sub hostOps1 _ hostOps1_writes h
theorem W5_of (c : Dev nD) (r : Ref sig .tc) (h : r ∉ hostOps2_W) :
    W5 m c (Proc.devRef .tc r) = W4 m c (Proc.devRef .tc r) :=
  StableHlo.after_of_writes_sub hostOps2 _ hostOps2_writes h
theorem W7_of (c : Dev nD) (r : Ref sig .tc) (h : r ∉ hostOps3_W) :
    W7 m c (Proc.devRef .tc r) = W6 m c (Proc.devRef .tc r) :=
  StableHlo.after_of_writes_sub hostOps3 _ hostOps3_writes h
theorem W9_of (c : Dev nD) (r : Ref sig .tc) (h : r ∉ hostOps4_W) :
    W9 m c (Proc.devRef .tc r) = W8 m c (Proc.devRef .tc r) :=
  StableHlo.after_of_writes_sub hostOps4 _ hostOps4_writes h
theorem W11_of (c : Dev nD) (r : Ref sig .tc) (h : r ∉ hostOps5_W) :
    W11 m c (Proc.devRef .tc r) = W10 m c (Proc.devRef .tc r) :=
  StableHlo.after_of_writes_sub hostOps5 _ hostOps5_writes h

-- Not scoped, written by no host operation, the output array of no region.
abbrev Untouched (b : Ref sig .tc) : Prop :=
  ¬ (Proc.devRef .tc b : DevRef τ sig).isScoped
  ∧ (b ∉ hostOps0_W ∧ ∀ w, Pipeline.arrRef spec0 w = b → (cfg0.win w).isOut = false)
  ∧ (b ∉ hostOps1_W ∧ ∀ w, Pipeline.arrRef spec1 w = b → (cfg1.win w).isOut = false)
  ∧ (b ∉ hostOps2_W ∧ ∀ w, Pipeline.arrRef spec2 w = b → (cfg2.win w).isOut = false)
  ∧ (b ∉ hostOps3_W ∧ ∀ w, Pipeline.arrRef spec3 w = b → (cfg3.win w).isOut = false)
  ∧ (b ∉ hostOps4_W ∧ ∀ w, Pipeline.arrRef spec4 w = b → (cfg4.win w).isOut = false)
  ∧ b ∉ hostOps5_W ∧ ∀ w, Pipeline.arrRef spec5 w = b → (cfg5.win w).isOut = false

theorem W12_of_untouched (c : Dev nD) (b : Ref sig .tc) (h : Untouched b) :
    W12 m c (Proc.devRef .tc b) = m ((c : Thread nD τ).loc b) :=
  let ⟨_, ⟨h0, k0⟩, ⟨h1, k1⟩, ⟨h2, k2⟩, ⟨h3, k3⟩, ⟨h4, k4⟩, h5, k5⟩ := h
  (W12_keep m c b k5).trans <| (W11_of m c b h5).trans <| (W10_keep m c b k4).trans <| (W9_of m c b h4).trans <|
    (W8_keep m c b k3).trans <| (W7_of m c b h3).trans <| (W6_keep m c b k2).trans <| (W5_of m c b h2).trans <|
    (W4_keep m c b k1).trans <| (W3_of m c b h1).trans <| (W2_keep m c b k0).trans <| W1_of m c b h0

theorem W12_main_v80 (c : Dev nD) :
    W12 m c (Proc.devRef .tc main_v80) = (dat4 (fun c b => W9 m c b) c).arrAt 5 cfg4.N :=
  (Pipeline.withArrays_of_ne spec5 c _ _ main_v80 (by decide)).trans <| (W11_of m c main_v80 (by decide)).trans (W10_arr m c 5)

theorem W12_main_v82 (c : Dev nD) :
    W12 m c (Proc.devRef .tc main_v82) = (dat5 (fun c b => W11 m c b) c).arrAt 6 cfg5.N :=
  W12_arr m c 6

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- What a memory that reads as `W12` holds at an untouched buffer is what `m` held there.
theorem kept {f : (ℓ : Loc nD τ sig) → Buf (Elt F) ℓ} {c : Dev nD}
    (h : ∀ b ∈ Pipeline.ucRefs τ sig, f ((c : Thread nD τ).1, b) = W12 m c b) (b : Ref sig .tc) (hb : Untouched b) :
    f ((c : Thread nD τ).loc b) = m ((c : Thread nD τ).loc b) :=
  (h _ (mem_uc b hb.1)).trans (W12_of_untouched m c b hb)

def pdats : (p : Fin 6) → (c : Dev nD) → Dat τ (Elt F) Unit ℕ (UR sig nD τ) ℕ (Pipeline.pin (pcfgs (F := F)) adm p) c
  | ⟨0, _⟩ => fun c => dat0 (fun c b => W1 m c b) c
  | ⟨1, _⟩ => fun c => dat1 (fun c b => W3 m c b) c
  | ⟨2, _⟩ => fun c => dat2 (fun c b => W5 m c b) c
  | ⟨3, _⟩ => fun c => dat3 (fun c b => W7 m c b) c
  | ⟨4, _⟩ => fun c => dat4 (fun c b => W9 m c b) c
  | ⟨5, _⟩ => fun c => dat5 (fun c b => W11 m c b) c

abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W12 m c) ∗ ∃ r, prngReg c r)

theorem ΦA_of_parts {gr Wn : Nat} (win : Fin Wn → Pipeline.WinSpec sig gr) (c : Dev nD) (T : sProp 𝕄) :
    iprop((∃ r, prngReg c r) ∗ T ∗ Pipeline.scopedRest win c) ⊢ (Pipeline.ΦA win c : sProp 𝕄) := by
  unfold Pipeline.ΦA
  iintro ⟨Hp, -, Hr⟩
  isplitl [Hr]; · iexact Hr
  iexact Hp

theorem parts_of_ΦA {gr Wn : Nat} (win : Fin Wn → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

theorem owesAt_of_nothing {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [h0]
  iintro ⟨%W, HO⟩
  iexists W
  isplitr
  · ipureintro
    exact fun x _ => Or.inl (by rw [hr]; exact Set.mem_univ x)
  iexact HO

theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩
  iexists W
  iexact HO

-- One record for all six regions: entered at the valuation `V`, left at `V` with the region's arrays at their final contents.
set_option backward.isDefEq.respectTransparency.types false in
def regOf (p : Fin 6) (kit : Pipeline.LaunchFacts (nD := nD) (τ := τ) cfgs p) (V : Dev nD → Valuation τ sig (Elt F))
    (hbd : ∀ c, BodyObligation (pdats m p c) (defs₀ (F := F)) Variants.none () Set.univ)
    (hq : ∀ c w, (pdats m p c).q w = fullShare)
    (hA : ∀ c w, (pdats m p c).A w = V c (Proc.devRef .tc (Pipeline.arrRef (cfgs p).spec w)))
    (h0 : ∀ c t, (pdats m p c).owed t = 0) (hr : ∀ c, (pdats m p c).recorded 0 = Set.univ)
    (hΦi : ∀ c, (Pipeline.ΦA (cfgs p).spec c : sProp 𝕄) ⊢ (pdats m p c).Φ 0)
    (hΦo : ∀ c, (pdats m p c).Φ (Fin.last (cfgs p).N) ⊢ (Pipeline.ΦA (cfgs p).spec c : sProp 𝕄)) :
    Pipeline.RegionSeg (pcfgs (F := F)) adm (pdats m) () defs₀ 𝒱₀ L lv p where
  win := kit.win.to₀
  block_pos := kit.block_pos
  stage_whole := kit.stage_whole
  K := PEmpty
  osem k := k.elim
  ho := Pipeline.OwnSemFacts.none _
  hbody c := (hbd c).loose
  hwaits := Pipeline.hwaits_of_owed_zero _ _ _ _ L lv p h0
  pre c := iprop(StableHlo.held (c : Thread nD τ) (Pipeline.ucRefs τ sig) (V c) ∗ R c)
  post c := iprop(StableHlo.held (c : Thread nD τ) (Pipeline.ucRefs τ sig)
    (Pipeline.withArrays (cfgs p).spec c (V c) ((pdats m p c).arrAt · (cfgs p).N)) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm (pdats m) kit.win kit.arr_whole c
      ((pdats m p c).share_full (hq c)) (fun b => V c b) (hA c)
    rw [Pipeline.unscopedBufs_held] at hsplit
    have hO := owesAt_of_nothing (pdats m p c) 0 (h0 c 0) (hr c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_parts (cfgs p).spec c _).trans (hΦi c)
  hout c := by
    rw [Pipeline.ownSems0_none]
    exact (hΦo c).trans (parts_of_ΦA (cfgs p).spec c)
  hexit c := by
    have hjoin := Pipeline.unscopedBufs_of_arrays (p := p) (pcfgs (F := F)) adm (Ix := Unit) (Name := ℕ) (U := UR sig nD τ) (Lvl := ℕ)
      kit.win kit.arr_whole c (pdats m) ((pdats m p c).share_full (hq c)) (fun b => V c b)
      (fun b => Pipeline.withArrays (cfgs p).spec c (V c) ((pdats m p c).arrAt · (cfgs p).N) b) ((pdats m p c).arrAt · (cfgs p).N)
      (fun w => (Pipeline.withArrays_arr _ kit.win.arr_inj c (V c) ((pdats m p c).arrAt · (cfgs p).N) w).symm)
      (fun b hb => Pipeline.withArrays_of_ne _ c _ _ b fun w e => hb (Finset.mem_image.mpr ⟨w, Finset.mem_univ _, e⟩))
    rw [Pipeline.unscopedBufs_held] at hjoin
    have hO := nothing_of_owesAt (pdats m p c) (Fin.last (cfgs p).N) (h0 c _)
    iintro ⟨Ha, HO, HY, Hrest⟩
    imodintro
    isplitl [Ha Hrest]
    · iapply hjoin; isplitl [Ha] <;> iassumption
    isplitl [HY]; · iexact HY
    iapply hO; iexact HO

set_option backward.isDefEq.respectTransparency.types false in
abbrev msegs : List (Pipeline.Seg (pcfgs (F := F)) adm (pdats m) () defs₀ 𝒱₀ L lv) :=
  [ .host (hseg hostOps0 hostOps0_sub hostOps0_fresh (W0 m)),
    .region (regOf m 0 launch0 (W1 m)
      (body_obligation0 (W1 m · ·)) (q_eq0 (W1 m · ·)) (A_eq0 (W1 m · ·)) (owed_eq0 (W1 m · ·)) (recorded_eq0 (W1 m · ·) · 0) (hin0 (W1 m · ·)) (hout0 (W1 m · ·))),
    .host (hseg hostOps1 hostOps1_sub hostOps1_fresh (W2 m)),
    .region (regOf m 1 launch1 (W3 m)
      (body_obligation1 (W3 m · ·)) (q_eq1 (W3 m · ·)) (A_eq1 (W3 m · ·)) (owed_eq1 (W3 m · ·)) (recorded_eq1 (W3 m · ·) · 0) (hin1 (W3 m · ·)) (hout1 (W3 m · ·))),
    .host (hseg hostOps2 hostOps2_sub hostOps2_fresh (W4 m)),
    .region (regOf m 2 launch2 (W5 m)
      (body_obligation2 (W5 m · ·)) (q_eq2 (W5 m · ·)) (A_eq2 (W5 m · ·)) (owed_eq2 (W5 m · ·)) (recorded_eq2 (W5 m · ·) · 0) (hin2 (W5 m · ·)) (hout2 (W5 m · ·))),
    .host (hseg hostOps3 hostOps3_sub hostOps3_fresh (W6 m)),
    .region (regOf m 3 launch3 (W7 m)
      (body_obligation3 (W7 m · ·)) (q_eq3 (W7 m · ·)) (A_eq3 (W7 m · ·)) (owed_eq3 (W7 m · ·)) (recorded_eq3 (W7 m · ·) · 0) (hin3 (W7 m · ·)) (hout3 (W7 m · ·))),
    .host (hseg hostOps4 hostOps4_sub hostOps4_fresh (W8 m)),
    .region (regOf m 4 launch4 (W9 m)
      (body_obligation4 (W9 m · ·)) (q_eq4 (W9 m · ·)) (A_eq4 (W9 m · ·)) (owed_eq4 (W9 m · ·)) (recorded_eq4 (W9 m · ·) · 0) (hin4 (W9 m · ·)) (hout4 (W9 m · ·))),
    .host (hseg hostOps5 hostOps5_sub hostOps5_fresh (W10 m)),
    .region (regOf m 5 launch5 (W11 m)
      (body_obligation5 (W11 m · ·)) (q_eq5 (W11 m · ·)) (A_eq5 (W11 m · ·)) (owed_eq5 (W11 m · ·)) (recorded_eq5 (W11 m · ·) · 0) (hin5 (W11 m · ·)) (hout5 (W11 m · ·))) ]

theorem main_run (c : Dev nD) : main (F := F) c = Pipeline.Seg.run (msegs m) := by
  rw [main_chain c, Pipeline.Seg.run_eq_chain]
  rfl

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem ((c : Thread nD τ).1, b) = W12 m c b) :=
  Pipeline.θ_run_regions_kit (pcfgs (F := F)) adm (pdats m) () cellOf_inj emb₁ defs₀ 𝒱₀ L lv m ρ main (msegs m)
    (fun c Q => by rw [main_run m c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m c b)
    (hfin := fun c s' => by
      iintro ⟨⟨Hh, -⟩, HSI⟩
      unfold StableHlo.held
      imodintro
      iapply (pointsTo_read_all (Pipeline.ucRefs τ sig) (fun b => (((c : Thread nD τ)).1, b)) (W12 m c) s')
      isplitl [Hh] <;> iassumption)
    (hQ := fun s h => h)

noncomputable def mainArgs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem mainArgs_untouched : ∀ b ∈ mainArgs, Untouched b := by decide

-- `f` and `g` hold the same contents at every buffer of the list: the conjunction, one equation a buffer.
def keptAll (f g : (ℓ : Loc nD τ sig) → Buf (Elt F) ℓ) (c : Dev nD) : List (Ref sig .tc) → Prop
  | [] => True
  | [b] => f ((c.tc : Thread nD τ).loc b) = g ((c.tc : Thread nD τ).loc b)
  | b :: bs => f ((c.tc : Thread nD τ).loc b) = g ((c.tc : Thread nD τ).loc b) ∧ keptAll f g c bs

theorem keptAll_of {f g : (ℓ : Loc nD τ sig) → Buf (Elt F) ℓ} {c : Dev nD} :
    ∀ l, (∀ b ∈ l, f ((c.tc : Thread nD τ).loc b) = g ((c.tc : Thread nD τ).loc b)) → keptAll f g c l
  | [], _ => trivial
  | [b], h => h b List.mem_cons_self
  | b :: b' :: bs, h => ⟨h b List.mem_cons_self, keptAll_of (b' :: bs) fun x hx => h x (List.mem_cons_of_mem _ hx)⟩

-- Every argument array ends as launched, at any float instance.
theorem frame (ρ : Dev nD → PrngReg) :
    θ_run defs (onTc (τ := τ) (main (F := F))) ⟨m, fun _ => 0, ρ⟩ (fun r => ∀ c : Dev nD, keptAll r.2.mem m c mainArgs) :=
  (θ_run defs _ _).mono (fun _ h c => keptAll_of _ fun b hb => kept m (h c) b (mainArgs_untouched b hb)) (run_all m ρ)

end Cert.KernelIdeal.Hand

end
-- ==== Proof.WordLevel.lean ====
import proofs.«430514_j6622839570447_1_alg».proof.Defs
import proofs.«430514_j6622839570447_1_alg».proof.Proof.Gen.Kernel
import proofs.«430514_j6622839570447_1_alg».proof.Proof.Gen.KernelIdeal
import proofs.«430514_j6622839570447_1_alg».proof.Proof.Gen.Pre_finite_inputs
import proofs.«430514_j6622839570447_1_alg».proof.Proof.KI.Run

noncomputable section

namespace Cert.Proof.Claims

open Idealize.ShloMosaic Idealize.SL.Sem

-- The two programs are one text: label by label, their kernel bodies are the same term at the word-level instance.
set_option maxHeartbeats 4000000 in
theorem bodies_eq : Cert.Kernel.defs₀ (F := Bits) = Cert.KernelIdeal.defs₀ (F := Bits) :=
  congrArg Defs.onTc (funext fun l => funext fun a => by
    match l, a with
    | 0, (t, s) => rfl
    | 1, (t, s) => rfl
    | 2, (t, s) => rfl
    | 3, (t, s) => rfl
    | 4, (t, s) => rfl
    | 5, (t, s) => rfl
    | ⟨_ + 6, h⟩, _ => exact absurd h (Nat.not_lt.2 (Nat.le_add_left _ _)))

set_option maxHeartbeats 4000000 in
theorem defs_eq : Cert.Kernel.defs (F := Bits) = Cert.KernelIdeal.defs (F := Bits) :=
  congrArg (Pipeline.defs (Cert.KernelIdeal.pcfgs (F := Bits))) bodies_eq

-- So the idealized program's frame, which holds at every float instance, is at the word-level instance the word-level program's.
set_option maxHeartbeats 4000000 in
theorem frame_k : Cert.frame_Kernel := fun m ρ _ => by
  rw [defs_eq]
  exact Cert.KernelIdeal.Hand.frame (F := Bits) m ρ

end Cert.Proof.Claims

end
-- ==== Proof.LibGatherRows.lean ====
import Idealize.ShloMosaic.PureOps
import Idealize.ShloMosaic.Lib.ValueIdx

noncomputable section

namespace Idealize.ShloMosaic.RowGather

open Idealize.ShloMosaic Idealize.ShloMosaic.ValueIdx

variable {α : Type}

abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

def clampRow (N : Nat) (hN : 0 < N) {w : Nat} (i : BitVec w) : Fin N :=
  ⟨min i.toInt.toNat (N - 1), by omega⟩

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowDims N C E wf) x idx (ix2 e k)
      = x (ix2 (clampRow N hN (idx (ix2 e (0 : Fin 1)))) k) := by
  unfold Host.gather
  congr 1
  funext a
  refine Fin.ext ?_
  match a with
  | ⟨0, _⟩ =>
    show (rowDims N C E wf).start (ix2 e k) idx 0 + (rowDims N C E wf).batchCoord (ix2 e k) 0
      + (rowDims N C E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e k) ⟨List.idxOf (0 : Fin 2) (rowDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N C E wf).start (ix2 e k) idx 1 + (rowDims N C E wf).batchCoord (ix2 e k) 1
      + (rowDims N C E wf).offCoord (ix2 e k) 1 = _
    rw [GatherDims.batchCoord_eq_zero _ _ _ List.not_mem_nil]
    unfold GatherDims.start
    rw [dif_neg (show (1 : Fin 2) ∉ (rowDims N C E wf).startIndexMap from (by decide : (1 : Fin 2) ∉ [(0 : Fin 2)]))]
    simp only [Nat.add_zero, Nat.zero_add]
    unfold GatherDims.offCoord
    rw [dif_pos ((GatherDims.mem_sKept _ _).mpr ⟨(by decide : (1 : Fin 2) ∉ [(0 : Fin 2)]), List.not_mem_nil⟩)]
    rfl

def wrap (i : BitVec 32) : BitVec 32 :=
  Scalar.select (IntOp.cmpi .slt i 0#32) (IntOp.addi i 100000#32) i

private theorem toInt_zero32 : (0#32 : BitVec 32).toInt = 0 := by decide
private theorem toInt_m32 : (99999#32 : BitVec 32).toInt = 99999 := by decide

private theorem wrap_of_nonneg (i : BitVec 32) (h : 0 ≤ i.toInt) : wrap i = i := by
  have hs : i.slt 0#32 = false := by
    rw [BitVec.slt_eq_decide, toInt_zero32]; exact decide_eq_false (by omega)
  show (if BitVec.ofBool (i.slt 0#32) = 1 then i + 100000#32 else i) = _
  rw [hs]; rfl

private theorem range_tests (v : BitVec 32) (h : 0 ≤ v.toInt ∧ v.toInt ≤ 99999) :
    IntOp.cmpi .sge v 0#32 = 1#1 ∧ IntOp.cmpi .sle v 99999#32 = 1#1 := by
  constructor
  · show BitVec.ofBool ((0#32 : BitVec 32).sle v) = 1#1
    have : (0#32 : BitVec 32).sle v = true := by
      rw [BitVec.sle_iff_toInt_le, toInt_zero32]; exact h.1
    rw [this]; rfl
  · show BitVec.ofBool (v.sle 99999#32) = 1#1
    have : v.sle 99999#32 = true := by
      rw [BitVec.sle_iff_toInt_le, toInt_m32]; exact h.2
    rw [this]; rfl

theorem wrap_of_row (i : BitVec 32) (n : Nat) (hn : n < 100000) (h : i.toInt = (n : Int)) :
    wrap i = i ∧ IntOp.cmpi .sge (wrap i) 0#32 = 1#1 ∧ IntOp.cmpi .sle (wrap i) 99999#32 = 1#1 := by
  have hw : wrap i = i := wrap_of_nonneg i (by omega)
  refine ⟨hw, ?_⟩
  rw [hw]
  exact range_tests i (by omega)

end Idealize.ShloMosaic.RowGather

end
-- ==== Proof.Spec.lean ====
import Idealize.ShloMosaic.PureOps.Ideal
import Mathlib.Algebra.BigOperators.Group.Finset.Basic
import proofs.«430514_j6622839570447_1_alg».proof.Proof.LibGatherRows

noncomputable section

namespace Cert.Gnn

open Idealize.ShloMosaic

abbrev NP : Nat := 100000
abbrev NL : Nat := 128
abbrev EC : Nat := 1600000
abbrev EI : Nat := 100000

def IsReal (x : EReal) : Prop := ∃ r : ℝ, x = (r : EReal)

def mm {a b c : Nat} (A : Fin a → Fin b → EReal) (B : Fin b → Fin c → EReal) : Fin a → Fin c → EReal :=
  fun i j => ∑ k : Fin b, A i k * B k j

def mmT {r a c : Nat} (A : Fin r → Fin a → EReal) (B : Fin r → Fin c → EReal) : Fin a → Fin c → EReal :=
  fun i j => ∑ k : Fin r, A k i * B k j

def reluIf (relu : Bool) (x : EReal) : EReal :=
  if relu then max x (Ideal.ofBits .f32 0x00000000#32) else x

abbrev half : EReal := Ideal.ofBits .f32 0x3F000000#32

def countMat (paper : Fin EI → Fin NP) (label : Fin EI → Fin NL) (p : Fin NP) (l : Fin NL) : EReal :=
  ∑ e ∈ Finset.univ.filter (fun e : Fin EI => paper e = p ∧ label e = l), (1 : EReal)

def aggRev (paper : Fin EI → Fin NP) (label : Fin EI → Fin NL) (xl : Fin NL → Fin 128 → EReal) (p : Fin NP) (k : Fin 128) : EReal :=
  ∑ e ∈ Finset.univ.filter (fun e : Fin EI => paper e = p), xl (label e) k

def aggLab (paper : Fin EI → Fin NP) (label : Fin EI → Fin NL) (xp : Fin NP → Fin 128 → EReal) (l : Fin NL) (k : Fin 128) : EReal :=
  ∑ e ∈ Finset.univ.filter (fun e : Fin EI => label e = l), xp (paper e) k

abbrev zeroF : EReal := Ideal.ofBits .f32 0x00000000#32
abbrev oneF : EReal := Ideal.ofBits .f32 0x3F800000#32

def landOf (cd : Fin EC → BitVec 32) (p : Fin NP) : Finset (Fin EC) :=
  Finset.univ.filter fun e => (cd e).toInt = (p.val : Int)

def rowOf (w : BitVec 32) : Fin NP := RowGather.clampRow NP (by decide) (RowGather.wrap w)

def dinvOf (cd : Fin EC → BitVec 32) (p : Fin NP) : EReal :=
  Ideal.rsqrt ((zeroF + ∑ _e ∈ landOf cd p, oneF) + oneF)

def normOf (cs cd : Fin EC → BitVec 32) (e : Fin EC) : EReal :=
  dinvOf cd (rowOf (cs e)) * dinvOf cd (rowOf (cd e))

def aggCites {d : Nat} (land : Fin NP → Finset (Fin EC)) (src : Fin EC → Fin NP) (nrm : Fin EC → EReal)
    (h : Fin NP → Fin d → EReal) (p : Fin NP) (j : Fin d) : EReal :=
  ∑ e ∈ land p, h (src e) j * nrm e

def paperOut {d : Nat} (relu : Bool) (agg h : Fin NP → Fin d → EReal) (dinv2 : Fin NP → EReal) (b : Fin d → EReal)
    (prev : Fin NP → Fin d → EReal) (p : Fin NP) (j : Fin d) : EReal :=
  reluIf relu (half * (((agg p j + dinv2 p * h p j) + b j) + prev p j))

def prevK {d : Nat} (xp : Fin NP → Fin 128 → EReal) (M : Fin NP → Fin NL → EReal) (xlW : Fin NL → Fin d → EReal)
    (Wroot : Fin 128 → Fin d → EReal) (brel : Fin d → EReal) (p : Fin NP) (j : Fin d) : EReal :=
  (mm xp Wroot p j + mm M xlW p j) + brel j

def prevR {d : Nat} (xp : Fin NP → Fin 128 → EReal) (agg : Fin NP → Fin 128 → EReal)
    (Wrel Wroot : Fin 128 → Fin d → EReal) (brel : Fin d → EReal) (p : Fin NP) (j : Fin d) : EReal :=
  (mm agg Wrel p j + brel j) + mm xp Wroot p j

def labelOut {d : Nat} (relu : Bool) (agg : Fin NL → Fin 128 → EReal) (xl : Fin NL → Fin 128 → EReal)
    (Wrel Wroot : Fin 128 → Fin d → EReal) (b : Fin d → EReal) (l : Fin NL) (j : Fin d) : EReal :=
  reluIf relu ((mm agg Wrel l j + b j) + mm xl Wroot l j)

structure Net where
  xp : Fin NP → Fin 128 → EReal
  xl : Fin NL → Fin 128 → EReal
  cs : Fin EC → BitVec 32
  cd : Fin EC → BitVec 32
  paper : Fin EI → Fin NP
  label : Fin EI → Fin NL
  gcnW1 : Fin 128 → Fin 128 → EReal
  gcnb1 : Fin 128 → EReal
  isrelW1 : Fin 128 → Fin 128 → EReal
  isrelb1 : Fin 128 → EReal
  isrootW1 : Fin 128 → Fin 128 → EReal
  revrelW1 : Fin 128 → Fin 128 → EReal
  revrelb1 : Fin 128 → EReal
  revrootW1 : Fin 128 → Fin 128 → EReal
  gcnW2 : Fin 128 → Fin 64 → EReal
  gcnb2 : Fin 64 → EReal
  isrelW2 : Fin 128 → Fin 64 → EReal
  isrelb2 : Fin 64 → EReal
  isrootW2 : Fin 128 → Fin 64 → EReal
  revrelW2 : Fin 128 → Fin 64 → EReal
  revrelb2 : Fin 64 → EReal
  revrootW2 : Fin 128 → Fin 64 → EReal

namespace Net

variable (I : Net)

def dinv2 (p : Fin NP) : EReal := dinvOf I.cd p * dinvOf I.cd p

def agg {d : Nat} (h : Fin NP → Fin d → EReal) : Fin NP → Fin d → EReal :=
  aggCites (landOf I.cd) (fun e => rowOf (I.cs e)) (normOf I.cs I.cd) h

def hpR : Fin NP → Fin 128 → EReal :=
  paperOut true (I.agg (mm I.xp I.gcnW1)) (mm I.xp I.gcnW1) I.dinv2 I.gcnb1
    (prevR I.xp (aggRev I.paper I.label I.xl) I.revrelW1 I.revrootW1 I.revrelb1)
def hlR : Fin NL → Fin 128 → EReal :=
  labelOut true (aggLab I.paper I.label I.xp) I.xl I.isrelW1 I.isrootW1 I.isrelb1
def zpR : Fin NP → Fin 64 → EReal :=
  paperOut false (I.agg (mm I.hpR I.gcnW2)) (mm I.hpR I.gcnW2) I.dinv2 I.gcnb2
    (prevR I.hpR (aggRev I.paper I.label I.hlR) I.revrelW2 I.revrootW2 I.revrelb2)
def zlR : Fin NL → Fin 64 → EReal :=
  labelOut false (aggLab I.paper I.label I.hpR) I.hlR I.isrelW2 I.isrootW2 I.isrelb2

def hpK : Fin NP → Fin 128 → EReal :=
  paperOut true (I.agg (mm I.xp I.gcnW1)) (mm I.xp I.gcnW1) I.dinv2 I.gcnb1
    (prevK I.xp (countMat I.paper I.label) (mm I.xl I.revrelW1) I.revrootW1 I.revrelb1)
def hlK : Fin NL → Fin 128 → EReal :=
  labelOut true (mmT (countMat I.paper I.label) I.xp) I.xl I.isrelW1 I.isrootW1 I.isrelb1
def zpK : Fin NP → Fin 64 → EReal :=
  paperOut false (I.agg (mm I.hpK I.gcnW2)) (mm I.hpK I.gcnW2) I.dinv2 I.gcnb2
    (prevK I.hpK (countMat I.paper I.label) (mm I.hlK I.revrelW2) I.revrootW2 I.revrelb2)
def zlK : Fin NL → Fin 64 → EReal :=
  labelOut false (mmT (countMat I.paper I.label) I.hpK) I.hlK I.isrelW2 I.isrootW2 I.isrelb2

structure Finite : Prop where
  xp : ∀ p k, IsReal (I.xp p k)
  xl : ∀ l k, IsReal (I.xl l k)
  isrelW1 : ∀ k j, IsReal (I.isrelW1 k j)
  isrelb1 : ∀ j, IsReal (I.isrelb1 j)
  isrootW1 : ∀ k j, IsReal (I.isrootW1 k j)
  revrelW1 : ∀ k j, IsReal (I.revrelW1 k j)
  revrelW2 : ∀ k j, IsReal (I.revrelW2 k j)

end Net

end Cert.Gnn

end
-- ==== Proof.KerNet.lean ====
import proofs.«430514_j6622839570447_1_alg».proof.KernelIdeal
import proofs.«430514_j6622839570447_1_alg».proof.Proof.Spec
import Idealize.ShloMosaic.Lib.ValueIdx

noncomputable section

namespace Cert.KernelIdeal.KerVal

open Cert.KernelIdeal Idealize.ShloMosaic Idealize.ShloMosaic.TcCoe Idealize.ShloMosaic.ValueIdx Idealize.SL.Sem

def netOf (m : (ℓ : Loc nD τ sig) → Buf (Elt Ideal) ℓ) (c : Dev nD)
    (paper : Fin 100000 → Fin 100000) (label : Fin 100000 → Fin 128) : Cert.Gnn.Net where
    xp := fun a b => (m ((c.tc : Thread nD τ).loc main_arg0) : S100000x128.Idx → EReal) (ix2 a b)
    xl := fun a b => (m ((c.tc : Thread nD τ).loc main_arg1) : S128x128.Idx → EReal) (ix2 a b)
    cs := fun e => (m ((c.tc : Thread nD τ).loc main_arg2) : S1600000.Idx → BitVec 32) (ix1 e)
    cd := fun e => (m ((c.tc : Thread nD τ).loc main_arg3) : S1600000.Idx → BitVec 32) (ix1 e)
    paper := paper
    label := label
    gcnW1 := fun a b => (m ((c.tc : Thread nD τ).loc main_arg6) : S128x128.Idx → EReal) (ix2 a b)
    gcnb1 := fun a => (m ((c.tc : Thread nD τ).loc main_arg7) : S128.Idx → EReal) (ix1 a)
    isrelW1 := fun a b => (m ((c.tc : Thread nD τ).loc main_arg8) : S128x128.Idx → EReal) (ix2 a b)
    isrelb1 := fun a => (m ((c.tc : Thread nD τ).loc main_arg9) : S128.Idx → EReal) (ix1 a)
    isrootW1 := fun a b => (m ((c.tc : Thread nD τ).loc main_arg10) : S128x128.Idx → EReal) (ix2 a b)
    revrelW1 := fun a b => (m ((c.tc : Thread nD τ).loc main_arg11) : S128x128.Idx → EReal) (ix2 a b)
    revrelb1 := fun a => (m ((c.tc : Thread nD τ).loc main_arg12) : S128.Idx → EReal) (ix1 a)
    revrootW1 := fun a b => (m ((c.tc : Thread nD τ).loc main_arg13) : S128x128.Idx → EReal) (ix2 a b)
    gcnW2 := fun a b => (m ((c.tc : Thread nD τ).loc main_arg14) : S128x64.Idx → EReal) (ix2 a b)
    gcnb2 := fun a => (m ((c.tc : Thread nD τ).loc main_arg15) : S64.Idx → EReal) (ix1 a)
    isrelW2 := fun a b => (m ((c.tc : Thread nD τ).loc main_arg16) : S128x64.Idx → EReal) (ix2 a b)
    isrelb2 := fun a => (m ((c.tc : Thread nD τ).loc main_arg17) : S64.Idx → EReal) (ix1 a)
    isrootW2 := fun a b => (m ((c.tc : Thread nD τ).loc main_arg18) : S128x64.Idx → EReal) (ix2 a b)
    revrelW2 := fun a b => (m ((c.tc : Thread nD τ).loc main_arg19) : S128x64.Idx → EReal) (ix2 a b)
    revrelb2 := fun a => (m ((c.tc : Thread nD τ).loc main_arg20) : S64.Idx → EReal) (ix1 a)
    revrootW2 := fun a b => (m ((c.tc : Thread nD τ).loc main_arg21) : S128x64.Idx → EReal) (ix2 a b)

end Cert.KernelIdeal.KerVal

end
-- ==== Proof.KVIdx.lean ====
import Idealize.ShloMosaic.Lib.ValueIdx

noncomputable section

namespace Cert.KernelIdeal.Hand

open Idealize.ShloMosaic Idealize.ShloMosaic.ValueIdx

theorem ix2_ext {n0 n1 : ℕ} {y : (⟨2, ![n0, n1]⟩ : Shape).Idx} {a : Fin n0} {b : Fin n1}
    (h0 : (y 0).val = a.val) (h1 : (y 1).val = b.val) : y = ix2 a b :=
  (eq_ix2 y).trans (congrArg₂ ix2 (Fin.ext h0) (Fin.ext h1))

theorem row_ok {f : Fin 2 → ℕ} {t s r : ℕ} (h : f = ![t, 0]) : f 0 * s + 1 * r = s * t + r := by
  subst h; show t * s + 1 * r = s * t + r; rw [Nat.mul_comm, Nat.one_mul]

theorem col_ok {f : Fin 2 → ℕ} {q s y : ℕ} (h : f = ![q, 0]) : f 1 * s + 1 * y = y := by
  subst h; show 0 * s + 1 * y = y; rw [Nat.zero_mul, Nat.zero_add, Nat.one_mul]

theorem zero_ok {f : Fin 2 → ℕ} {q s y : ℕ} (h : f = ![0, q]) : f 0 * s + 1 * y = y := by
  subst h; show 0 * s + 1 * y = y; rw [Nat.zero_mul, Nat.zero_add, Nat.one_mul]

theorem zeros2 : (![0, 0] : Fin 2 → Nat) = fun _ => 0 := funext fun a => by fin_cases a <;> rfl

def rowAt {N : ℕ} (hN : N = 20) (t : Fin N) (r : Fin 5000) : Fin 100000 :=
  ⟨5000 * t.val + r.val, by have h1 := t.isLt; have h3 := r.isLt; omega⟩

theorem exists_rowAt {N : ℕ} (hN : N = 20) (p : Fin 100000) : ∃ (t : Fin N) (r : Fin 5000), p = rowAt hN t r := by
  have hp := p.isLt
  exact ⟨⟨p.val / 5000, by omega⟩, ⟨p.val % 5000, by omega⟩,
    Fin.ext (by show p.val = 5000 * (p.val / 5000) + p.val % 5000; omega)⟩

def rowsMul {n : ℕ} (X : (⟨2, ![100000, 128]⟩ : Shape).Idx → EReal) (W : (⟨2, ![128, n]⟩ : Shape).Idx → EReal) :
    (⟨2, ![100000, n]⟩ : Shape).Idx → EReal := fun i =>
  ∑ k : Fin 128, X (ix2 (i 0) k) * W (ix2 k (i 1))

end Cert.KernelIdeal.Hand

end
-- ==== Proof.KV0.lean ====
import proofs.«430514_j6622839570447_1_alg».proof.Proof.KI.R0
import proofs.«430514_j6622839570447_1_alg».proof.Proof.Spec
import proofs.«430514_j6622839570447_1_alg».proof.Proof.KVIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe
open Idealize.ShloMosaic.ValueIdx
open Cert.KernelIdeal Cert.KernelIdeal.Gen

theorem rows_mul0 (x : FVec Ideal S5000x128 .bf16) (w : FVec Ideal S128x128 .bf16) (r : Fin 5000) (j : Fin 128) :
    matmul dot_S5000x128_S128x128_S5000x128_1_0_0_1_n_n none x w (constant (F := Ideal) S5000x128 .f32 0x00000000#32) (ix2 r j)
      = ∑ k : Fin 128, x (ix2 r k) * w (ix2 k j) := by
  show FloatOps.matmul dot_S5000x128_S128x128_S5000x128_1_0_0_1_n_n none x w (constant (F := Ideal) S5000x128 .f32 0x00000000#32) (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  rw [ix2_ext (a := r) (b := k) (by unfold DotDims.lhsIdx; rw [dif_neg (by decide), dif_pos (by decide)]; rfl)
      ((dot_S5000x128_S128x128_S5000x128_1_0_0_1_n_n.lhsIdx_val_of_single rfl _ _).trans hk),
    ix2_ext (a := k) (b := j) ((dot_S5000x128_S128x128_S5000x128_1_0_0_1_n_n.rhsIdx_val_of_single rfl _ _).trans hk)
      (by unfold DotDims.rhsIdx; rw [dif_neg (by decide), dif_pos (by decide)]; rfl)]

theorem pay1_apply0 (x : Vec Ideal S5000x128 .f32) (y : S5000x128.Idx) :
    (k0_pay1 (F := Ideal) x y : EReal) = x y := by
  unfold k0_pay1
  first | rfl | (rw [shapeCast_self]; rfl)

theorem pay2_apply0 (x : Vec Ideal S5000x128 .f32) (w : Vec Ideal S128x128 .f32) (r : Fin 5000) (j : Fin 128) :
    k0_pay2 (F := Ideal) x w (ix2 r j) = ∑ k : Fin 128, (x (ix2 r k) : EReal) * (w (ix2 k j) : EReal) :=
  (rows_mul0 _ _ r j).trans (Finset.sum_congr rfl fun k _ =>
    congrArg₂ (fun a b : EReal => a * b) (pay1_apply0 x (ix2 r k)) rfl)

theorem pay3_apply0 (x0 x1 : Vec Ideal S5000x128 .f32) (w3 w4 : Vec Ideal S128x128 .f32) (b : Vec Ideal S1x128 .f32)
    (r : Fin 5000) (j : Fin 128) :
    k0_pay3 (F := Ideal) x0 x1 w3 w4 b (ix2 r j)
      = ((∑ k : Fin 128, (x0 (ix2 r k) : EReal) * (w3 (ix2 k j) : EReal))
          + ∑ l : Fin 128, (x1 (ix2 r l) : EReal) * (w4 (ix2 l j) : EReal)) + (b (ix2 0 j) : EReal) := by
  simp only [k0_pay3, shapeCast_self]
  rw [addf_apply, addf_apply, rows_mul0, rows_mul0,
    broadcastTo_apply b _ (ix2 r j) (ix2 0 j) (fun a => by match a with | ⟨0, _⟩ => rfl | ⟨1, _⟩ => rfl)]
  exact congrArg₂ (fun a b : EReal => a + b) (congrArg₂ (fun a b : EReal => a + b)
    (Finset.sum_congr rfl fun k _ => congrArg₂ (fun a b : EReal => a * b) (pay1_apply0 x0 (ix2 r k)) rfl) rfl) rfl

section Values0

variable (V : (c : Dev nD) → (b : Ref sig .tc) → Buf (Elt Ideal) ((c : Thread nD τ).loc b))

theorem blocks_at0 : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] :=
  (by decide +kernel : ∀ t : Fin grid0.N, _)

theorem emb0 (t : Fin cfg0.N) (r : Fin 5000) (k : Fin 128) (j : Fin 128) :
    ((cfg0.win 0).blk t).view.emb (ix2 r k) = ix2 (rowAt N_0 t r) k
    ∧ ((cfg0.win 1).blk t).view.emb (ix2 r k) = ix2 (rowAt N_0 t r) k
    ∧ ((cfg0.win 2).blk t).view.emb (ix2 k j) = ix2 k j
    ∧ ((cfg0.win 3).blk t).view.emb (ix2 k j) = ix2 k j
    ∧ ((cfg0.win 4).blk t).view.emb (ix2 k j) = ix2 k j := by
  obtain ⟨w0, w1, w2, w3, w4, -⟩ := blocks_at0 t
  exact ⟨ix2_ext (row_ok w0) (col_ok w0), ix2_ext (row_ok w1) (col_ok w1), ix2_ext (zero_ok w2) (col_ok w2),
    ix2_ext (zero_ok w3) (col_ok w3), ix2_ext (zero_ok w4) (col_ok w4)⟩

theorem emb0_j (t : Fin cfg0.N) (r : Fin 5000) (j : Fin 128) :
    ((cfg0.win 5).blk t).view.emb (ix2 (0 : Fin 1) j) = ix2 (0 : Fin 1) j
    ∧ ((cfg0.win 6).blk t).view.emb (ix2 r j) = ix2 (rowAt N_0 t r) j
    ∧ ((cfg0.win 7).blk t).view.emb (ix2 r j) = ix2 (rowAt N_0 t r) j := by
  obtain ⟨-, -, -, -, -, w5, w6, w7⟩ := blocks_at0 t
  exact ⟨ix2_ext (zero_ok w5) (col_ok w5), ix2_ext (row_ok w6) (col_ok w6), ix2_ext (row_ok w7) (col_ok w7)⟩

def G0_6 (c : Dev nD) : S100000x128.Idx → EReal := rowsMul (V c main_arg0) (V c main_arg6)

def G0_7 (c : Dev nD) : S100000x128.Idx → EReal := fun i =>
  (rowsMul (V c main_arg0) (V c main_arg13) i + rowsMul (V c main_v40) (V c main_v43) i)
    + (V c main_v44 : S1x128.Idx → EReal) (ix2 (0 : Fin 1) (i 1))

theorem flushed0_6_eq (c : Dev nD) (t : Fin cfg0.N) :
    (dat0 V c).flushed 6 t = ((cfg0.win 6).blk t).view.read (Elt Ideal) (G0_6 V c) := by
  show (cfg0.win 6).cut (grid0.coords t) ((dat0 V c).after 6 t) = _
  rw [after0_6]
  unfold out0_6
  rw [View.canon_unit_zero zeros2]
  simp only [View.ld_unit_zero (S := S5000x128) zeros2, View.ld_unit_zero (S := S128x128) zeros2]
  funext y
  obtain ⟨r, j, rfl⟩ : ∃ (r : Fin 5000) (j : Fin 128), y = ix2 r j := ⟨y 0, y 1, eq_ix2 y⟩
  show k0_pay2 (F := Ideal) (iblk0 V c 0 t) (iblk0 V c 2 t) (ix2 r j) = G0_6 V c (((cfg0.win 6).blk t).view.emb (ix2 r j))
  rw [pay2_apply0, (emb0_j t r j).2.1]
  unfold G0_6 rowsMul
  exact Finset.sum_congr rfl fun k _ => congrArg₂ (fun a b : EReal => a * b)
    (congrArg (V c main_arg0 : S100000x128.Idx → EReal) (emb0 t r k j).1)
    (congrArg (V c main_arg6 : S128x128.Idx → EReal) (emb0 t r k j).2.2.1)

theorem flushed0_7_eq (c : Dev nD) (t : Fin cfg0.N) :
    (dat0 V c).flushed 7 t = ((cfg0.win 7).blk t).view.read (Elt Ideal) (G0_7 V c) := by
  show (cfg0.win 7).cut (grid0.coords t) ((dat0 V c).after 7 t) = _
  rw [after0_7]
  unfold out0_7
  rw [View.canon_unit_zero zeros2]
  simp only [View.ld_unit_zero (S := S5000x128) zeros2, View.ld_unit_zero (S := S128x128) zeros2,
    View.ld_unit_zero (S := S1x128) zeros2]
  funext y
  obtain ⟨r, j, rfl⟩ : ∃ (r : Fin 5000) (j : Fin 128), y = ix2 r j := ⟨y 0, y 1, eq_ix2 y⟩
  show k0_pay3 (F := Ideal) (iblk0 V c 0 t) (iblk0 V c 1 t) (iblk0 V c 3 t) (iblk0 V c 4 t) (iblk0 V c 5 t) (ix2 r j)
    = G0_7 V c (((cfg0.win 7).blk t).view.emb (ix2 r j))
  rw [pay3_apply0, (emb0_j t r j).2.2]
  unfold G0_7 rowsMul
  refine congrArg₂ (fun a b : EReal => a + b) (congrArg₂ (fun a b : EReal => a + b) ?_ ?_)
    (congrArg (V c main_v44 : S1x128.Idx → EReal) (emb0_j t r j).1)
  · exact Finset.sum_congr rfl fun k _ => congrArg₂ (fun a b : EReal => a * b)
      (congrArg (V c main_arg0 : S100000x128.Idx → EReal) (emb0 t r k j).1)
      (congrArg (V c main_arg13 : S128x128.Idx → EReal) (emb0 t r k j).2.2.2.1)
  · exact Finset.sum_congr rfl fun l _ => congrArg₂ (fun a b : EReal => a * b)
      (congrArg (V c main_v40 : S100000x128.Idx → EReal) (emb0 t r l j).2.1)
      (congrArg (V c main_v43 : S128x128.Idx → EReal) (emb0 t r l j).2.2.2.2)

theorem cover0 (i : S100000x128.Idx) :
    (∃ t : Fin cfg0.N, (cfg0.win 6).flush t = true ∧ i ∈ ((cfg0.win 6).blk t).view.set)
    ∧ ∃ t : Fin cfg0.N, (cfg0.win 7).flush t = true ∧ i ∈ ((cfg0.win 7).blk t).view.set := by
  obtain ⟨p, j, rfl⟩ : ∃ (p : Fin 100000) (j : Fin 128), i = ix2 p j := ⟨i 0, i 1, eq_ix2 i⟩
  obtain ⟨t, r, rfl⟩ := exists_rowAt (N := cfg0.N) N_0 p
  obtain ⟨-, e6, e7⟩ := emb0_j t r j
  exact ⟨⟨t, flush0_6 t, e6 ▸ View.emb_mem_set _ _⟩, ⟨t, flush0_7 t, e7 ▸ View.emb_mem_set _ _⟩⟩

theorem val0_h (c : Dev nD) (p : Fin 100000) (j : Fin 128) :
    ((dat0 V c).arrAt 6 cfg0.N : S100000x128.Idx → EReal) (ix2 p j)
      = Cert.Gnn.mm (fun p k => (V c main_arg0 : S100000x128.Idx → EReal) (ix2 p k))
          (fun k j => (V c main_arg6 : S128x128.Idx → EReal) (ix2 k j)) p j := by
  rw [(dat0 V c).arrAt_eq_of_cover 6 (G0_6 V c) (fun t _ => flushed0_6_eq V c t) fun i => (cover0 i).1]
  rfl

theorem val0_prev (c : Dev nD) (p : Fin 100000) (j : Fin 128) :
    ((dat0 V c).arrAt 7 cfg0.N : S100000x128.Idx → EReal) (ix2 p j)
      = Cert.Gnn.prevK (fun p k => (V c main_arg0 : S100000x128.Idx → EReal) (ix2 p k))
          (fun p l => (V c main_v40 : S100000x128.Idx → EReal) (ix2 p l))
          (fun l j => (V c main_v43 : S128x128.Idx → EReal) (ix2 l j))
          (fun k j => (V c main_arg13 : S128x128.Idx → EReal) (ix2 k j))
          (fun j => (V c main_v44 : S1x128.Idx → EReal) (ix2 0 j)) p j := by
  rw [(dat0 V c).arrAt_eq_of_cover 7 (G0_7 V c) (fun t _ => flushed0_7_eq V c t) fun i => (cover0 i).2]
  rfl

end Values0

end Cert.KernelIdeal.Hand

end
-- ==== Proof.KV1.lean ====
import proofs.«430514_j6622839570447_1_alg».proof.Proof.KI.R1
import proofs.«430514_j6622839570447_1_alg».proof.Proof.Spec
import proofs.«430514_j6622839570447_1_alg».proof.Proof.KVIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen

theorem pay1_at (a : Vec Ideal S5000x128 .f32) (s : Vec Ideal S5000x1 .f32) (h : Vec Ideal S5000x128 .f32)
    (b : Vec Ideal S1x128 .f32) (p : Vec Ideal S5000x128 .f32) (r : Fin 5000) (j : Fin 128) :
    (k1_pay1 a s h b p : S5000x128.Idx → EReal) (ix2 r j)
      = Cert.Gnn.reluIf true (Cert.Gnn.half * ((((a (ix2 r j) : EReal) + s (ix2 r 0) * h (ix2 r j)) + b (ix2 0 j)) + p (ix2 r j))) := by
  unfold k1_pay1
  simp only [shapeCast_self, maximumf_apply, mulf_apply, addf_apply, broadcast_apply]
  rw [broadcastTo_apply s _ (ix2 r j) (ix2 r 0) (fun a => by match a with | ⟨0, _⟩ => rfl | ⟨1, _⟩ => rfl),
    broadcastTo_apply b _ (ix2 r j) (ix2 0 j) (fun a => by match a with | ⟨0, _⟩ => rfl | ⟨1, _⟩ => rfl)]
  rfl

theorem maps1 : ∀ t : Fin cfg1.N,
    win1_5.index t = ![t.val, 0] ∧ win1_0.index t = ![t.val, 0] ∧ win1_1.index t = ![t.val, 0]
    ∧ win1_2.index t = ![t.val, 0] ∧ win1_3.index t = ![0, 0] ∧ win1_4.index t = ![t.val, 0] :=
  (by decide +kernel : ∀ t : Fin grid1.N, _)

variable (V : (c : Dev nD) → (b : Ref sig .tc) → Buf (Elt Ideal) ((c : Thread nD τ).loc b))

def G1 (c : Dev nD) : S100000x128.Idx → EReal := fun i =>
  Cert.Gnn.paperOut true (fun p j => (V c main_v57 : S100000x128.Idx → EReal) (ix2 p j))
    (fun p j => (V c main_v45_0 : S100000x128.Idx → EReal) (ix2 p j))
    (fun p => (V c main_v8 : S100000x1.Idx → EReal) (ix2 p 0))
    (fun j => (V c main_v58 : S1x128.Idx → EReal) (ix2 0 j))
    (fun p j => (V c main_v45_1 : S100000x128.Idx → EReal) (ix2 p j)) (i 0) (i 1)

theorem emb1 (t : Fin cfg1.N) (r : Fin 5000) (j : Fin 128) :
    ((cfg1.win 0).blk t).view.emb (ix2 r j) = ix2 (rowAt N_1 t r) j
    ∧ ((cfg1.win 1).blk t).view.emb (ix2 r j) = ix2 (rowAt N_1 t r) j
    ∧ ((cfg1.win 2).blk t).view.emb (ix2 r (0 : Fin 1)) = ix2 (rowAt N_1 t r) (0 : Fin 1)
    ∧ ((cfg1.win 3).blk t).view.emb (ix2 (0 : Fin 1) j) = ix2 (0 : Fin 1) j
    ∧ ((cfg1.win 4).blk t).view.emb (ix2 r j) = ix2 (rowAt N_1 t r) j
    ∧ ((cfg1.win 5).blk t).view.emb (ix2 r j) = ix2 (rowAt N_1 t r) j := by
  obtain ⟨o, a, h, s, b, p⟩ := maps1 t
  exact ⟨ix2_ext (row_ok a) (col_ok a), ix2_ext (row_ok h) (col_ok h), ix2_ext (row_ok s) (col_ok s),
    ix2_ext (zero_ok b) (col_ok b), ix2_ext (row_ok p) (col_ok p), ix2_ext (row_ok o) (col_ok o)⟩

theorem at1 (c : Dev nD) (t : Fin cfg1.N) (r : Fin 5000) (j : Fin 128) :
    (iblk1 V c 0 t : S5000x128.Idx → EReal) (ix2 r j) = (V c main_v57 : S100000x128.Idx → EReal) (ix2 (rowAt N_1 t r) j)
    ∧ (iblk1 V c 1 t : S5000x128.Idx → EReal) (ix2 r j) = (V c main_v45_0 : S100000x128.Idx → EReal) (ix2 (rowAt N_1 t r) j)
    ∧ (iblk1 V c 2 t : S5000x1.Idx → EReal) (ix2 r 0) = (V c main_v8 : S100000x1.Idx → EReal) (ix2 (rowAt N_1 t r) 0)
    ∧ (iblk1 V c 3 t : S1x128.Idx → EReal) (ix2 0 j) = (V c main_v58 : S1x128.Idx → EReal) (ix2 0 j)
    ∧ (iblk1 V c 4 t : S5000x128.Idx → EReal) (ix2 r j) = (V c main_v45_1 : S100000x128.Idx → EReal) (ix2 (rowAt N_1 t r) j) := by
  obtain ⟨e0, e1, e2, e3, e4, -⟩ := emb1 t r j
  exact ⟨congrArg (V c main_v57 : S100000x128.Idx → EReal) e0, congrArg (V c main_v45_0 : S100000x128.Idx → EReal) e1,
    congrArg (V c main_v8 : S100000x1.Idx → EReal) e2, congrArg (V c main_v58 : S1x128.Idx → EReal) e3,
    congrArg (V c main_v45_1 : S100000x128.Idx → EReal) e4⟩

theorem flushed1_eq (c : Dev nD) (t : Fin cfg1.N) :
    (dat1 V c).flushed 5 t = ((cfg1.win 5).blk t).view.read (Elt Ideal) (G1 V c) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S5000x1) zeros2,
    View.ld_unit_zero (S := S1x128) zeros2]
  funext y
  obtain ⟨r, j, rfl⟩ : ∃ (r : Fin 5000) (j : Fin 128), y = ix2 r j := ⟨y 0, y 1, eq_ix2 y⟩
  show k1_pay1 (iblk1 V c 0 t) (iblk1 V c 2 t) (iblk1 V c 1 t) (iblk1 V c 3 t) (iblk1 V c 4 t) (ix2 r j)
    = G1 V c (((cfg1.win 5).blk t).view.emb (ix2 r j))
  obtain ⟨e0, e1, e2, e3, e4⟩ := at1 V c t r j
  rw [pay1_at, e0, e1, e2, e3, e4, (emb1 t r j).2.2.2.2.2]
  rfl

theorem cover1 (i : S100000x128.Idx) :
    ∃ t : Fin cfg1.N, (cfg1.win 5).flush t = true ∧ i ∈ ((cfg1.win 5).blk t).view.set := by
  obtain ⟨p, j, rfl⟩ : ∃ (p : Fin 100000) (j : Fin 128), i = ix2 p j := ⟨i 0, i 1, eq_ix2 i⟩
  obtain ⟨t, r, rfl⟩ := exists_rowAt (N := cfg1.N) N_1 p
  exact ⟨t, flush1_5 t, (emb1 t r j).2.2.2.2.2 ▸ View.emb_mem_set _ _⟩

theorem val1 (c : Dev nD) (p : Fin 100000) (j : Fin 128) :
    ((dat1 V c).arrAt 5 cfg1.N : S100000x128.Idx → EReal) (ix2 p j)
      = Cert.Gnn.paperOut true (fun p j => (V c main_v57 : S100000x128.Idx → EReal) (ix2 p j))
          (fun p j => (V c main_v45_0 : S100000x128.Idx → EReal) (ix2 p j))
          (fun p => (V c main_v8 : S100000x1.Idx → EReal) (ix2 p 0))
          (fun j => (V c main_v58 : S1x128.Idx → EReal) (ix2 0 j))
          (fun p j => (V c main_v45_1 : S100000x128.Idx → EReal) (ix2 p j)) p j := by
  rw [(dat1 V c).arrAt_eq_of_cover 5 (G1 V c) (fun t _ => flushed1_eq V c t) cover1]
  rfl

end Cert.KernelIdeal.Hand

end
-- ==== Proof.Algebra.lean ====
import proofs.«430514_j6622839570447_1_alg».proof.Proof.Spec
import Mathlib.Data.EReal.Operations
import Mathlib.Algebra.BigOperators.Group.Finset.Sigma
import Mathlib.Algebra.BigOperators.Group.Finset.Piecewise
import Mathlib.Algebra.BigOperators.Ring.Finset
import Mathlib.Algebra.BigOperators.Fin
import Mathlib.Logic.Equiv.Fin.Basic

noncomputable section

namespace Cert.Gnn

open Idealize.ShloMosaic

theorem isReal_zero : IsReal (0 : EReal) := ⟨0, rfl⟩

theorem isReal_add {x y : EReal} : IsReal x → IsReal y → IsReal (x + y) := by
  rintro ⟨a, rfl⟩ ⟨b, rfl⟩; exact ⟨a + b, (EReal.coe_add a b).symm⟩

theorem isReal_mul {x y : EReal} : IsReal x → IsReal y → IsReal (x * y) := by
  rintro ⟨a, rfl⟩ ⟨b, rfl⟩; exact ⟨a * b, (EReal.coe_mul a b).symm⟩

theorem coe_finset_sum {ι : Type*} (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

theorem isReal_sum {ι : Type*} (s : Finset ι) (f : ι → EReal) (hf : ∀ i ∈ s, IsReal (f i)) :
    IsReal (∑ i ∈ s, f i) := Finset.sum_induction f IsReal (fun _ _ => isReal_add) isReal_zero hf

theorem isReal_mm {a b c : Nat} (A : Fin a → Fin b → EReal) (B : Fin b → Fin c → EReal)
    (hA : ∀ i k, IsReal (A i k)) (hB : ∀ k j, IsReal (B k j)) (i : Fin a) (j : Fin c) :
    IsReal (mm A B i j) :=
  isReal_sum _ _ (fun k _ => isReal_mul (hA i k) (hB k j))

theorem isReal_max {x y : EReal} (hx : IsReal x) (hy : IsReal y) : IsReal (max x y) := by
  rcases max_choice x y with h | h
  · rw [h]; exact hx
  · rw [h]; exact hy

theorem ofBits_zero_word : Ideal.ofBits .f32 0x00000000#32 = (0 : EReal) := by
  simp [Ideal.ofBits, Ideal.ieee]

theorem isReal_reluIf (relu : Bool) {x : EReal} (hx : IsReal x) : IsReal (reluIf relu x) := by
  unfold reluIf
  split
  · exact isReal_max hx (by rw [ofBits_zero_word]; exact isReal_zero)
  · exact hx

theorem isReal_aggLab (paper : Fin EI → Fin NP) (label : Fin EI → Fin NL) (xp : Fin NP → Fin 128 → EReal)
    (hxp : ∀ p k, IsReal (xp p k)) (l : Fin NL) (k : Fin 128) : IsReal (aggLab paper label xp l k) :=
  isReal_sum _ _ (fun e _ => hxp (paper e) k)

theorem isReal_labelOut {d : Nat} (relu : Bool) (agg xl : Fin NL → Fin 128 → EReal)
    (Wrel Wroot : Fin 128 → Fin d → EReal) (b : Fin d → EReal)
    (hagg : ∀ l k, IsReal (agg l k)) (hxl : ∀ l k, IsReal (xl l k))
    (hWrel : ∀ k j, IsReal (Wrel k j)) (hWroot : ∀ k j, IsReal (Wroot k j)) (hb : ∀ j, IsReal (b j))
    (l : Fin NL) (j : Fin d) : IsReal (labelOut relu agg xl Wrel Wroot b l j) := by
  unfold labelOut
  exact isReal_reluIf relu
    (isReal_add (isReal_add (isReal_mm agg Wrel hagg hWrel l j) (hb j)) (isReal_mm xl Wroot hxl hWroot l j))

theorem sum_mul_of_isReal {ι : Type*} (s : Finset ι) (f : ι → EReal) (w : EReal)
    (hf : ∀ i, IsReal (f i)) (hw : IsReal w) : (∑ i ∈ s, f i) * w = ∑ i ∈ s, f i * w := by
  choose r hr using hf
  obtain ⟨v, rfl⟩ := hw
  have hf' : f = fun i => (r i : EReal) := funext hr
  subst hf'
  simp only [← EReal.coe_mul, ← coe_finset_sum]
  rw [Finset.sum_mul]

section Count

variable (paper : Fin EI → Fin NP) (label : Fin EI → Fin NL)

theorem countMat_mul (p : Fin NP) (l : Fin NL) (x : EReal) :
    countMat paper label p l * x
      = ∑ _e ∈ Finset.univ.filter (fun e : Fin EI => paper e = p ∧ label e = l), x := by
  unfold countMat
  rw [Finset.sum_const, Finset.sum_const, EReal.nsmul_eq_mul, EReal.nsmul_eq_mul, mul_one]

-- Summing a function of the label against the counts of paper `p` is summing it over the edges of `p`.
theorem sum_countMat_mul_labels (G : Fin NL → EReal) (p : Fin NP) :
    ∑ l : Fin NL, countMat paper label p l * G l
      = ∑ e ∈ Finset.univ.filter (fun e : Fin EI => paper e = p), G (label e) := by
  simp_rw [countMat_mul, ← Finset.filter_filter]
  exact Finset.sum_fiberwise' _ label G

theorem sum_countMat_mul_papers (H : Fin NP → EReal) (l : Fin NL) :
    ∑ p : Fin NP, countMat paper label p l * H p
      = ∑ e ∈ Finset.univ.filter (fun e : Fin EI => label e = l), H (paper e) := by
  simp_rw [countMat_mul, and_comm (b := label _ = l), ← Finset.filter_filter]
  exact Finset.sum_fiberwise' _ paper H

theorem mmT_countMat (xp : Fin NP → Fin 128 → EReal) (l : Fin NL) (k : Fin 128) :
    mmT (countMat paper label) xp l k = aggLab paper label xp l k := by
  unfold mmT aggLab
  exact sum_countMat_mul_papers paper label (fun p => xp p k) l

theorem mm_countMat {d : Nat} (Y : Fin NL → Fin d → EReal) (p : Fin NP) (j : Fin d) :
    mm (countMat paper label) Y p j
      = ∑ e ∈ Finset.univ.filter (fun e : Fin EI => paper e = p), Y (label e) j := by
  unfold mm
  exact sum_countMat_mul_labels paper label (fun l => Y l j) p

theorem mm_countMat_assoc {d : Nat} (xl : Fin NL → Fin 128 → EReal) (W : Fin 128 → Fin d → EReal)
    (hxl : ∀ l k, IsReal (xl l k)) (hW : ∀ k j, IsReal (W k j)) (p : Fin NP) (j : Fin d) :
    mm (countMat paper label) (mm xl W) p j = mm (aggRev paper label xl) W p j := by
  rw [mm_countMat]
  unfold mm aggRev
  rw [Finset.sum_comm]
  refine Finset.sum_congr rfl (fun k _ => ?_)
  exact (sum_mul_of_isReal _ (fun e => xl (label e) k) (W k j) (fun e => hxl (label e) k) (hW k j)).symm

theorem prevK_eq_prevR {d : Nat} (xp : Fin NP → Fin 128 → EReal) (xl : Fin NL → Fin 128 → EReal)
    (Wrel Wroot : Fin 128 → Fin d → EReal) (brel : Fin d → EReal)
    (hxl : ∀ l k, IsReal (xl l k)) (hW : ∀ k j, IsReal (Wrel k j)) (p : Fin NP) (j : Fin d) :
    prevK xp (countMat paper label) (mm xl Wrel) Wroot brel p j
      = prevR xp (aggRev paper label xl) Wrel Wroot brel p j := by
  unfold prevK prevR
  rw [mm_countMat_assoc paper label xl Wrel hxl hW p j, add_comm (mm xp Wroot p j), add_right_comm]

end Count

theorem sum_rows_blocks {M : Type*} [AddCommMonoid M] (f : Fin 100000 → M) :
    ∑ i, f i = ∑ t : Fin 20, ∑ r : Fin 5000, f ⟨5000 * t.val + r.val, by omega⟩ := by
  rw [← Finset.sum_product', Finset.univ_product_univ]
  symm
  refine Fintype.sum_equiv (finProdFinEquiv : Fin 20 × Fin 5000 ≃ Fin 100000) _ _ ?_
  rintro ⟨t, r⟩
  refine congrArg f (Fin.ext ?_)
  simp only [finProdFinEquiv, Equiv.coe_fn_mk]
  omega

theorem mmT_blocks {a c : Nat} (A : Fin 100000 → Fin a → EReal) (B : Fin 100000 → Fin c → EReal)
    (i : Fin a) (j : Fin c) :
    mmT A B i j = ∑ t : Fin 20, ∑ r : Fin 5000,
      A ⟨5000 * t.val + r.val, by omega⟩ i * B ⟨5000 * t.val + r.val, by omega⟩ j := by
  unfold mmT
  exact sum_rows_blocks (fun k => A k i * B k j)

def accFold (P : ℕ → EReal) : ℕ → EReal
  | 0 => (0 : EReal) + P 0
  | n + 1 => accFold P n + P (n + 1)

theorem accFold_eq (P : ℕ → EReal) (n : ℕ) : accFold P n = ∑ t ∈ Finset.range (n + 1), P t := by
  induction n with
  | zero => simp [accFold]
  | succ n ih => rw [accFold, ih, Finset.sum_range_succ _ (n + 1)]

end Cert.Gnn

end
-- ==== Proof.KV2.lean ====
import proofs.«430514_j6622839570447_1_alg».proof.Proof.KI.R2
import proofs.«430514_j6622839570447_1_alg».proof.Proof.Spec
import proofs.«430514_j6622839570447_1_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

-- Both operands are contracted over their rows: the left one transposed, times the right one.
theorem matA2_apply (L R : FVec Ideal S5000x128 .bf16) (l k : Fin 128) :
    matmul dot_S5000x128_S5000x128_S128x128_0_0_1_1_n_n none L R (constant (F := Ideal) S128x128 .f32 0x00000000#32) (ix2 l k)
      = ∑ r : Fin 5000, L (ix2 r l) * R (ix2 r k) := by
  simp only [matmul]
  rw [Ideal.matmul_constant_zero_apply, ← Equiv.sum_comp (contrEquiv1 dot_S5000x128_S5000x128_S128x128_0_0_1_1_n_n 5000 rfl rfl).symm]
  refine Finset.sum_congr rfl fun r _ => ?_
  congr 2 <;> funext a <;> match a with | ⟨0, _⟩ => rfl | ⟨1, _⟩ => rfl

-- The ordinary product of two matrices.
theorem matB2_apply (L : FVec Ideal S128x128 .bf16) (R : FVec Ideal S128x128 .bf16) (l : Fin 128) (j : Fin 128) :
    matmul dot_S128x128_S128x128_S128x128_1_0_0_1_n_n none L R (constant (F := Ideal) S128x128 .f32 0x00000000#32) (ix2 l j)
      = ∑ k : Fin 128, L (ix2 l k) * R (ix2 k j) := by
  simp only [matmul]
  rw [Ideal.matmul_constant_zero_apply, ← Equiv.sum_comp (contrEquiv1 dot_S128x128_S128x128_S128x128_1_0_0_1_n_n 128 rfl rfl).symm]
  refine Finset.sum_congr rfl fun k _ => ?_
  congr 2 <;> funext a <;> match a with | ⟨0, _⟩ => rfl | ⟨1, _⟩ => rfl

theorem hz2 : (![0, 0] : Fin 2 → Nat) = fun _ => 0 := funext fun a => by fin_cases a <;> rfl

theorem acc2init_apply (i : S128x128.Idx) : acc2init (F := Ideal) i = 0 := by
  unfold acc2init k2_pay1; rw [View.canon_unit_zero hz2]
  simp only [shapeCast_self]
  exact Ideal.ofBits_zero_f32

theorem acc2step_apply (x0 x1 : Vec Ideal S5000x128 .f32) (a : Vec Ideal S128x128 .f32) (l k : Fin 128) :
    acc2step x0 x1 a (ix2 l k) = a (ix2 l k) + ∑ r : Fin 5000, x1 (ix2 r l) * x0 (ix2 r k) := by
  unfold acc2step k2_pay2; rw [View.canon_unit_zero hz2]
  simp only [View.ld_unit_zero (S := S5000x128) hz2, View.ld_unit_zero (S := S128x128) hz2, shapeCast_self]
  rw [addf_apply, matA2_apply]
  rfl

theorem out2_6_apply (a : Vec Ideal S128x128 .f32) (x2 : Vec Ideal S128x128 .f32) (x4 : Vec Ideal S128x128 .f32) (x5 : Vec Ideal S128x128 .f32)
    (x3 : Vec Ideal S1x128 .f32) (l : Fin 128) (j : Fin 128) :
    out2_6 a x2 x4 x5 x3 (ix2 l j)
      = Cert.Gnn.reluIf true
          (((∑ k : Fin 128, a (ix2 l k) * x2 (ix2 k j)) + x3 (ix2 (0 : Fin 1) j)) + ∑ k : Fin 128, x4 (ix2 l k) * x5 (ix2 k j)) := by
  unfold out2_6 k2_pay3 Cert.Gnn.reluIf
  rw [View.canon_unit_zero hz2, if_pos rfl]
  simp only [View.ld_unit_zero (S := S128x128) hz2, View.ld_unit_zero (S := S1x128) hz2, shapeCast_self]
  rw [maximumf_apply, addf_apply, addf_apply, matB2_apply, matB2_apply, broadcastTo_1b_ab_apply]
  rfl

section Region
variable (V : (c : Dev nD) → (b : Ref sig .tc) → Buf (Elt Ideal) ((c : Thread nD τ).loc b)) (c : Dev nD)

theorem idx2_rows : ∀ t : Fin cfg2.N,
    win2_0.index t (0 : Fin 2) = t.val ∧ win2_0.index t (1 : Fin 2) = 0
    ∧ win2_1.index t (0 : Fin 2) = t.val ∧ win2_1.index t (1 : Fin 2) = 0 :=
  (by decide +kernel : ∀ t : Fin grid2.N, _)

theorem idx2_zero : ∀ (t : Fin cfg2.N) (a : Fin 2),
    win2_2.index t a = 0 ∧ win2_3.index t a = 0 ∧ win2_4.index t a = 0 ∧ win2_5.index t a = 0 ∧ win2_6.index t a = 0 :=
  (by decide +kernel : ∀ t : Fin grid2.N, _)

abbrev Mt2 (p : Fin 100000) (l : Fin 128) : EReal := (V c main_v40 : S100000x128.Idx → EReal) (ix2 p l)
abbrev Xp2 (p : Fin 100000) (k : Fin 128) : EReal := (V c main_arg0 : S100000x128.Idx → EReal) (ix2 p k)
abbrev blk2_0 (t : Fin cfg2.N) : Vec Ideal S5000x128 .f32 := iblk2 V c 0 t
abbrev blk2_1 (t : Fin cfg2.N) : Vec Ideal S5000x128 .f32 := iblk2 V c 1 t

theorem lt20_2 (t : Fin cfg2.N) : t.val < 20 := lt_of_lt_of_eq t.isLt (show cfg2.N = 20 from N_2)

-- Block t of a row-blocked operand is rows 5000 t to 5000 t + 4999 of its array.
theorem iblk2_0_apply (t : Fin cfg2.N) (r : Fin 5000) (k : Fin 128) :
    blk2_0 V c t (ix2 r k) = Xp2 V c ⟨5000 * t.val + r.val, by have := lt20_2 t; omega⟩ k := by
  obtain ⟨e0, e1, -⟩ := idx2_rows t
  show (V c main_arg0 : S100000x128.Idx → EReal) (((cfg2.win 0).blk t).view.emb (ix2 r k)) = _
  refine congrArg _ (funext fun a => Fin.ext ?_)
  match a with
  | ⟨0, _⟩ => show win2_0.index t (0 : Fin 2) * 5000 + 1 * r.val = 5000 * t.val + r.val; omega
  | ⟨1, _⟩ => show win2_0.index t (1 : Fin 2) * 128 + 1 * k.val = k.val; omega

theorem iblk2_1_apply (t : Fin cfg2.N) (r : Fin 5000) (k : Fin 128) :
    blk2_1 V c t (ix2 r k) = Mt2 V c ⟨5000 * t.val + r.val, by have := lt20_2 t; omega⟩ k := by
  obtain ⟨-, -, e0, e1⟩ := idx2_rows t
  show (V c main_v40 : S100000x128.Idx → EReal) (((cfg2.win 1).blk t).view.emb (ix2 r k)) = _
  refine congrArg _ (funext fun a => Fin.ext ?_)
  match a with
  | ⟨0, _⟩ => show win2_1.index t (0 : Fin 2) * 5000 + 1 * r.val = 5000 * t.val + r.val; omega
  | ⟨1, _⟩ => show win2_1.index t (1 : Fin 2) * 128 + 1 * k.val = k.val; omega

def rowP2 (l k : Fin 128) (t : ℕ) : EReal :=
  if h : t < 20 then
    ∑ r : Fin 5000, Mt2 V c ⟨5000 * t + r.val, by omega⟩ l * Xp2 V c ⟨5000 * t + r.val, by omega⟩ k
  else 0

theorem blockSum2 (l k : Fin 128) (t : Fin cfg2.N) :
    ∑ r : Fin 5000, blk2_1 V c t (ix2 r l) * blk2_0 V c t (ix2 r k) = rowP2 V c l k t.val := by
  unfold rowP2; rw [dif_pos (lt20_2 t)]
  exact Finset.sum_congr rfl fun r _ => by rw [iblk2_0_apply, iblk2_1_apply]

theorem acc2_apply (l k : Fin 128) (n : ℕ) (h : n < cfg2.N) :
    (acc2 V c n h : S128x128.Idx → EReal) (ix2 l k) = Cert.Gnn.accFold (rowP2 V c l k) n := by
  induction n with
  | zero => rw [acc2_zero, acc2step_apply, acc2init_apply, blockSum2 V c l k ⟨0, h⟩]; rfl
  | succ n ih => rw [acc2_succ, acc2step_apply, ih, blockSum2 V c l k ⟨n + 1, h⟩]; rfl

theorem acc2_last (l k : Fin 128) (h : 19 < cfg2.N) :
    (acc2 V c 19 h : S128x128.Idx → EReal) (ix2 l k) = Cert.Gnn.mmT (Mt2 V c) (Xp2 V c) l k := by
  rw [acc2_apply, Cert.Gnn.accFold_eq, Finset.sum_range, Cert.Gnn.mmT_blocks]
  exact Finset.sum_congr rfl fun t _ => dif_pos t.isLt

-- With block index zero on both axes, an element's place in the array is its place in the block.
theorem iblk2_2_eq (t : Fin cfg2.N) : (iblk2 V c 2 t : S128x128.Idx → EReal) = (V c main_arg8 : S128x128.Idx → EReal) :=
  funext fun y => congrArg (V c main_arg8 : S128x128.Idx → EReal) <| funext fun a =>
    Fin.ext (win2_2.rect_emb_val_of_index_zero t a (idx2_zero t a).1 y)
theorem iblk2_3_eq (t : Fin cfg2.N) : (iblk2 V c 3 t : S1x128.Idx → EReal) = (V c main_v60 : S1x128.Idx → EReal) :=
  funext fun y => congrArg (V c main_v60 : S1x128.Idx → EReal) <| funext fun a =>
    Fin.ext (win2_3.rect_emb_val_of_index_zero t a (idx2_zero t a).2.1 y)
theorem iblk2_4_eq (t : Fin cfg2.N) : (iblk2 V c 4 t : S128x128.Idx → EReal) = (V c main_arg1 : S128x128.Idx → EReal) :=
  funext fun y => congrArg (V c main_arg1 : S128x128.Idx → EReal) <| funext fun a =>
    Fin.ext (win2_4.rect_emb_val_of_index_zero t a (idx2_zero t a).2.2.1 y)
theorem iblk2_5_eq (t : Fin cfg2.N) : (iblk2 V c 5 t : S128x128.Idx → EReal) = (V c main_arg10 : S128x128.Idx → EReal) :=
  funext fun y => congrArg (V c main_arg10 : S128x128.Idx → EReal) <| funext fun a =>
    Fin.ext (win2_5.rect_emb_val_of_index_zero t a (idx2_zero t a).2.2.2.1 y)
theorem emb2_6 (t : Fin cfg2.N) (y : S128x128.Idx) : ((cfg2.win 6).blk t).view.emb y = y :=
  funext fun a => Fin.ext (win2_6.rect_emb_val_of_index_zero t a (idx2_zero t a).2.2.2.2 y)

def G2 : S128x128.Idx → EReal :=
  out2_6 (acc2 V c 19 (by rw [show cfg2.N = 20 from N_2]; omega)) (V c main_arg8 : S128x128.Idx → EReal)
    (V c main_arg1 : S128x128.Idx → EReal) (V c main_arg10 : S128x128.Idx → EReal) (V c main_v60 : S1x128.Idx → EReal)

-- The array ends as G2: the last point's block covers every index.
theorem final2 : ((dat2 V c).arrAt 6 cfg2.N : S128x128.Idx → EReal) = G2 V c := by
  have hN : 19 < cfg2.N := by rw [show cfg2.N = 20 from N_2]; omega
  refine (dat2 V c).arrAt_eq_of_cover 6 (G2 V c) (fun t hf => ?_) fun i => ⟨⟨19, hN⟩, (flush2_6 _).mpr rfl, ?_⟩
  · have h19 : t.val = 19 := by have h1 := (flush2_6 t).mp hf; have h2 := lt20_2 t; omega
    show (cfg2.win 6).cut (grid2.coords t) ((dat2 V c).after 6 t) = _
    rw [after2_6_last V c t h19, iblk2_2_eq, iblk2_3_eq, iblk2_4_eq, iblk2_5_eq]
    exact funext fun y => (congrArg (G2 V c) (emb2_6 t y)).symm
  · have h := ((cfg2.win 6).blk ⟨19, hN⟩).view.emb_mem_set i
    rwa [emb2_6] at h

theorem val2 (l : Fin 128) (j : Fin 128) :
    ((dat2 V c).arrAt 6 cfg2.N : S128x128.Idx → EReal) (ix2 l j)
      = Cert.Gnn.labelOut true
          (Cert.Gnn.mmT (fun p l => (V c main_v40 : S100000x128.Idx → EReal) (ix2 p l))
            (fun p k => (V c main_arg0 : S100000x128.Idx → EReal) (ix2 p k)))
          (fun l k => (V c main_arg1 : S128x128.Idx → EReal) (ix2 l k))
          (fun k j => (V c main_arg8 : S128x128.Idx → EReal) (ix2 k j))
          (fun k j => (V c main_arg10 : S128x128.Idx → EReal) (ix2 k j))
          (fun j => (V c main_v60 : S1x128.Idx → EReal) (ix2 (0 : Fin 1) j)) l j := by
  rw [final2 V c]
  unfold G2
  rw [out2_6_apply]
  simp only [acc2_last V c]
  rfl

end Region

end Cert.KernelIdeal.Hand

end
-- ==== Proof.KV3.lean ====
import proofs.«430514_j6622839570447_1_alg».proof.Proof.KI.R3
import proofs.«430514_j6622839570447_1_alg».proof.Proof.Spec
import proofs.«430514_j6622839570447_1_alg».proof.Proof.KVIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe
open Idealize.ShloMosaic.ValueIdx
open Cert.KernelIdeal Cert.KernelIdeal.Gen

theorem rows_mul3 (x : FVec Ideal S5000x128 .bf16) (w : FVec Ideal S128x64 .bf16) (r : Fin 5000) (j : Fin 64) :
    matmul dot_S5000x128_S128x64_S5000x64_1_0_0_1_n_n none x w (constant (F := Ideal) S5000x64 .f32 0x00000000#32) (ix2 r j)
      = ∑ k : Fin 128, x (ix2 r k) * w (ix2 k j) := by
  show FloatOps.matmul dot_S5000x128_S128x64_S5000x64_1_0_0_1_n_n none x w (constant (F := Ideal) S5000x64 .f32 0x00000000#32) (ix2 r j) = _
  rw [Ideal.matmul_constant_zero_apply, ← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  rw [ix2_ext (a := r) (b := k) (by unfold DotDims.lhsIdx; rw [dif_neg (by decide), dif_pos (by decide)]; rfl)
      ((dot_S5000x128_S128x64_S5000x64_1_0_0_1_n_n.lhsIdx_val_of_single rfl _ _).trans hk),
    ix2_ext (a := k) (b := j) ((dot_S5000x128_S128x64_S5000x64_1_0_0_1_n_n.rhsIdx_val_of_single rfl _ _).trans hk)
      (by unfold DotDims.rhsIdx; rw [dif_neg (by decide), dif_pos (by decide)]; rfl)]

theorem pay1_apply3 (x : Vec Ideal S5000x128 .f32) (y : S5000x128.Idx) :
    (k3_pay1 (F := Ideal) x y : EReal) = x y := by
  unfold k3_pay1
  first | rfl | (rw [shapeCast_self]; rfl)

theorem pay2_apply3 (x : Vec Ideal S5000x128 .f32) (w : Vec Ideal S128x64 .f32) (r : Fin 5000) (j : Fin 64) :
    k3_pay2 (F := Ideal) x w (ix2 r j) = ∑ k : Fin 128, (x (ix2 r k) : EReal) * (w (ix2 k j) : EReal) :=
  (rows_mul3 _ _ r j).trans (Finset.sum_congr rfl fun k _ =>
    congrArg₂ (fun a b : EReal => a * b) (pay1_apply3 x (ix2 r k)) rfl)

theorem pay3_apply3 (x0 x1 : Vec Ideal S5000x128 .f32) (w3 w4 : Vec Ideal S128x64 .f32) (b : Vec Ideal S1x64 .f32)
    (r : Fin 5000) (j : Fin 64) :
    k3_pay3 (F := Ideal) x0 x1 w3 w4 b (ix2 r j)
      = ((∑ k : Fin 128, (x0 (ix2 r k) : EReal) * (w3 (ix2 k j) : EReal))
          + ∑ l : Fin 128, (x1 (ix2 r l) : EReal) * (w4 (ix2 l j) : EReal)) + (b (ix2 0 j) : EReal) := by
  simp only [k3_pay3, shapeCast_self]
  rw [addf_apply, addf_apply, rows_mul3, rows_mul3,
    broadcastTo_apply b _ (ix2 r j) (ix2 0 j) (fun a => by match a with | ⟨0, _⟩ => rfl | ⟨1, _⟩ => rfl)]
  exact congrArg₂ (fun a b : EReal => a + b) (congrArg₂ (fun a b : EReal => a + b)
    (Finset.sum_congr rfl fun k _ => congrArg₂ (fun a b : EReal => a * b) (pay1_apply3 x0 (ix2 r k)) rfl) rfl) rfl

section Values3

variable (V : (c : Dev nD) → (b : Ref sig .tc) → Buf (Elt Ideal) ((c : Thread nD τ).loc b))

theorem blocks_at3 : ∀ t : Fin cfg3.N,
    win3_0.index t = ![t.val, 0] ∧ win3_1.index t = ![t.val, 0] ∧ win3_2.index t = ![0, 0] ∧ win3_3.index t = ![0, 0]
    ∧ win3_4.index t = ![0, 0] ∧ win3_5.index t = ![0, 0] ∧ win3_6.index t = ![t.val, 0] ∧ win3_7.index t = ![t.val, 0] :=
  (by decide +kernel : ∀ t : Fin grid3.N, _)

theorem emb3 (t : Fin cfg3.N) (r : Fin 5000) (k : Fin 128) (j : Fin 64) :
    ((cfg3.win 0).blk t).view.emb (ix2 r k) = ix2 (rowAt N_3 t r) k
    ∧ ((cfg3.win 1).blk t).view.emb (ix2 r k) = ix2 (rowAt N_3 t r) k
    ∧ ((cfg3.win 2).blk t).view.emb (ix2 k j) = ix2 k j
    ∧ ((cfg3.win 3).blk t).view.emb (ix2 k j) = ix2 k j
    ∧ ((cfg3.win 4).blk t).view.emb (ix2 k j) = ix2 k j := by
  obtain ⟨w0, w1, w2, w3, w4, -⟩ := blocks_at3 t
  exact ⟨ix2_ext (row_ok w0) (col_ok w0), ix2_ext (row_ok w1) (col_ok w1), ix2_ext (zero_ok w2) (col_ok w2),
    ix2_ext (zero_ok w3) (col_ok w3), ix2_ext (zero_ok w4) (col_ok w4)⟩

theorem emb3_j (t : Fin cfg3.N) (r : Fin 5000) (j : Fin 64) :
    ((cfg3.win 5).blk t).view.emb (ix2 (0 : Fin 1) j) = ix2 (0 : Fin 1) j
    ∧ ((cfg3.win 6).blk t).view.emb (ix2 r j) = ix2 (rowAt N_3 t r) j
    ∧ ((cfg3.win 7).blk t).view.emb (ix2 r j) = ix2 (rowAt N_3 t r) j := by
  obtain ⟨-, -, -, -, -, w5, w6, w7⟩ := blocks_at3 t
  exact ⟨ix2_ext (zero_ok w5) (col_ok w5), ix2_ext (row_ok w6) (col_ok w6), ix2_ext (row_ok w7) (col_ok w7)⟩

def G3_6 (c : Dev nD) : S100000x64.Idx → EReal := rowsMul (V c main_v59) (V c main_arg14)

def G3_7 (c : Dev nD) : S100000x64.Idx → EReal := fun i =>
  (rowsMul (V c main_v59) (V c main_arg21) i + rowsMul (V c main_v40) (V c main_v64) i)
    + (V c main_v65 : S1x64.Idx → EReal) (ix2 (0 : Fin 1) (i 1))

theorem flushed3_6_eq (c : Dev nD) (t : Fin cfg3.N) :
    (dat3 V c).flushed 6 t = ((cfg3.win 6).blk t).view.read (Elt Ideal) (G3_6 V c) := by
  show (cfg3.win 6).cut (grid3.coords t) ((dat3 V c).after 6 t) = _
  rw [after3_6]
  unfold out3_6
  rw [View.canon_unit_zero zeros2]
  simp only [View.ld_unit_zero (S := S5000x128) zeros2, View.ld_unit_zero (S := S128x64) zeros2]
  funext y
  obtain ⟨r, j, rfl⟩ : ∃ (r : Fin 5000) (j : Fin 64), y = ix2 r j := ⟨y 0, y 1, eq_ix2 y⟩
  show k3_pay2 (F := Ideal) (iblk3 V c 0 t) (iblk3 V c 2 t) (ix2 r j) = G3_6 V c (((cfg3.win 6).blk t).view.emb (ix2 r j))
  rw [pay2_apply3, (emb3_j t r j).2.1]
  unfold G3_6 rowsMul
  exact Finset.sum_congr rfl fun k _ => congrArg₂ (fun a b : EReal => a * b)
    (congrArg (V c main_v59 : S100000x128.Idx → EReal) (emb3 t r k j).1)
    (congrArg (V c main_arg14 : S128x64.Idx → EReal) (emb3 t r k j).2.2.1)

theorem flushed3_7_eq (c : Dev nD) (t : Fin cfg3.N) :
    (dat3 V c).flushed 7 t = ((cfg3.win 7).blk t).view.read (Elt Ideal) (G3_7 V c) := by
  show (cfg3.win 7).cut (grid3.coords t) ((dat3 V c).after 7 t) = _
  rw [after3_7]
  unfold out3_7
  rw [View.canon_unit_zero zeros2]
  simp only [View.ld_unit_zero (S := S5000x128) zeros2, View.ld_unit_zero (S := S128x64) zeros2,
    View.ld_unit_zero (S := S1x64) zeros2]
  funext y
  obtain ⟨r, j, rfl⟩ : ∃ (r : Fin 5000) (j : Fin 64), y = ix2 r j := ⟨y 0, y 1, eq_ix2 y⟩
  show k3_pay3 (F := Ideal) (iblk3 V c 0 t) (iblk3 V c 1 t) (iblk3 V c 3 t) (iblk3 V c 4 t) (iblk3 V c 5 t) (ix2 r j)
    = G3_7 V c (((cfg3.win 7).blk t).view.emb (ix2 r j))
  rw [pay3_apply3, (emb3_j t r j).2.2]
  unfold G3_7 rowsMul
  refine congrArg₂ (fun a b : EReal => a + b) (congrArg₂ (fun a b : EReal => a + b) ?_ ?_)
    (congrArg (V c main_v65 : S1x64.Idx → EReal) (emb3_j t r j).1)
  · exact Finset.sum_congr rfl fun k _ => congrArg₂ (fun a b : EReal => a * b)
      (congrArg (V c main_v59 : S100000x128.Idx → EReal) (emb3 t r k j).1)
      (congrArg (V c main_arg21 : S128x64.Idx → EReal) (emb3 t r k j).2.2.2.1)
  · exact Finset.sum_congr rfl fun l _ => congrArg₂ (fun a b : EReal => a * b)
      (congrArg (V c main_v40 : S100000x128.Idx → EReal) (emb3 t r l j).2.1)
      (congrArg (V c main_v64 : S128x64.Idx → EReal) (emb3 t r l j).2.2.2.2)

theorem cover3 (i : S100000x64.Idx) :
    (∃ t : Fin cfg3.N, (cfg3.win 6).flush t = true ∧ i ∈ ((cfg3.win 6).blk t).view.set)
    ∧ ∃ t : Fin cfg3.N, (cfg3.win 7).flush t = true ∧ i ∈ ((cfg3.win 7).blk t).view.set := by
  obtain ⟨p, j, rfl⟩ : ∃ (p : Fin 100000) (j : Fin 64), i = ix2 p j := ⟨i 0, i 1, eq_ix2 i⟩
  obtain ⟨t, r, rfl⟩ := exists_rowAt (N := cfg3.N) N_3 p
  obtain ⟨-, e6, e7⟩ := emb3_j t r j
  exact ⟨⟨t, flush3_6 t, e6 ▸ View.emb_mem_set _ _⟩, ⟨t, flush3_7 t, e7 ▸ View.emb_mem_set _ _⟩⟩

theorem val3_h (c : Dev nD) (p : Fin 100000) (j : Fin 64) :
    ((dat3 V c).arrAt 6 cfg3.N : S100000x64.Idx → EReal) (ix2 p j)
      = Cert.Gnn.mm (fun p k => (V c main_v59 : S100000x128.Idx → EReal) (ix2 p k))
          (fun k j => (V c main_arg14 : S128x64.Idx → EReal) (ix2 k j)) p j := by
  rw [(dat3 V c).arrAt_eq_of_cover 6 (G3_6 V c) (fun t _ => flushed3_6_eq V c t) fun i => (cover3 i).1]
  rfl

theorem val3_prev (c : Dev nD) (p : Fin 100000) (j : Fin 64) :
    ((dat3 V c).arrAt 7 cfg3.N : S100000x64.Idx → EReal) (ix2 p j)
      = Cert.Gnn.prevK (fun p k => (V c main_v59 : S100000x128.Idx → EReal) (ix2 p k))
          (fun p l => (V c main_v40 : S100000x128.Idx → EReal) (ix2 p l))
          (fun l j => (V c main_v64 : S128x64.Idx → EReal) (ix2 l j))
          (fun k j => (V c main_arg21 : S128x64.Idx → EReal) (ix2 k j))
          (fun j => (V c main_v65 : S1x64.Idx → EReal) (ix2 0 j)) p j := by
  rw [(dat3 V c).arrAt_eq_of_cover 7 (G3_7 V c) (fun t _ => flushed3_7_eq V c t) fun i => (cover3 i).2]
  rfl

end Values3

end Cert.KernelIdeal.Hand

end
-- ==== Proof.KV4.lean ====
import proofs.«430514_j6622839570447_1_alg».proof.Proof.KI.R4
import proofs.«430514_j6622839570447_1_alg».proof.Proof.Spec
import proofs.«430514_j6622839570447_1_alg».proof.Proof.KVIdx
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Cert.KernelIdeal Cert.KernelIdeal.Gen

theorem pay4_at (a : Vec Ideal S5000x64 .f32) (s : Vec Ideal S5000x1 .f32) (h : Vec Ideal S5000x64 .f32)
    (b : Vec Ideal S1x64 .f32) (p : Vec Ideal S5000x64 .f32) (r : Fin 5000) (j : Fin 64) :
    (k4_pay1 a s h b p : S5000x64.Idx → EReal) (ix2 r j)
      = Cert.Gnn.reluIf false (Cert.Gnn.half * ((((a (ix2 r j) : EReal) + s (ix2 r 0) * h (ix2 r j)) + b (ix2 0 j)) + p (ix2 r j))) := by
  unfold k4_pay1
  simp only [shapeCast_self, maximumf_apply, mulf_apply, addf_apply, broadcast_apply]
  rw [broadcastTo_apply s _ (ix2 r j) (ix2 r 0) (fun a => by match a with | ⟨0, _⟩ => rfl | ⟨1, _⟩ => rfl),
    broadcastTo_apply b _ (ix2 r j) (ix2 0 j) (fun a => by match a with | ⟨0, _⟩ => rfl | ⟨1, _⟩ => rfl)]
  rfl

theorem maps4 : ∀ t : Fin cfg4.N,
    win4_5.index t = ![t.val, 0] ∧ win4_0.index t = ![t.val, 0] ∧ win4_1.index t = ![t.val, 0]
    ∧ win4_2.index t = ![t.val, 0] ∧ win4_3.index t = ![0, 0] ∧ win4_4.index t = ![t.val, 0] :=
  (by decide +kernel : ∀ t : Fin grid4.N, _)

variable (V : (c : Dev nD) → (b : Ref sig .tc) → Buf (Elt Ideal) ((c : Thread nD τ).loc b))

def G4 (c : Dev nD) : S100000x64.Idx → EReal := fun i =>
  Cert.Gnn.paperOut false (fun p j => (V c main_v78 : S100000x64.Idx → EReal) (ix2 p j))
    (fun p j => (V c main_v66_0 : S100000x64.Idx → EReal) (ix2 p j))
    (fun p => (V c main_v8 : S100000x1.Idx → EReal) (ix2 p 0))
    (fun j => (V c main_v79 : S1x64.Idx → EReal) (ix2 0 j))
    (fun p j => (V c main_v66_1 : S100000x64.Idx → EReal) (ix2 p j)) (i 0) (i 1)

theorem emb4 (t : Fin cfg4.N) (r : Fin 5000) (j : Fin 64) :
    ((cfg4.win 0).blk t).view.emb (ix2 r j) = ix2 (rowAt N_4 t r) j
    ∧ ((cfg4.win 1).blk t).view.emb (ix2 r j) = ix2 (rowAt N_4 t r) j
    ∧ ((cfg4.win 2).blk t).view.emb (ix2 r (0 : Fin 1)) = ix2 (rowAt N_4 t r) (0 : Fin 1)
    ∧ ((cfg4.win 3).blk t).view.emb (ix2 (0 : Fin 1) j) = ix2 (0 : Fin 1) j
    ∧ ((cfg4.win 4).blk t).view.emb (ix2 r j) = ix2 (rowAt N_4 t r) j
    ∧ ((cfg4.win 5).blk t).view.emb (ix2 r j) = ix2 (rowAt N_4 t r) j := by
  obtain ⟨o, a, h, s, b, p⟩ := maps4 t
  exact ⟨ix2_ext (row_ok a) (col_ok a), ix2_ext (row_ok h) (col_ok h), ix2_ext (row_ok s) (col_ok s),
    ix2_ext (zero_ok b) (col_ok b), ix2_ext (row_ok p) (col_ok p), ix2_ext (row_ok o) (col_ok o)⟩

theorem at4 (c : Dev nD) (t : Fin cfg4.N) (r : Fin 5000) (j : Fin 64) :
    (iblk4 V c 0 t : S5000x64.Idx → EReal) (ix2 r j) = (V c main_v78 : S100000x64.Idx → EReal) (ix2 (rowAt N_4 t r) j)
    ∧ (iblk4 V c 1 t : S5000x64.Idx → EReal) (ix2 r j) = (V c main_v66_0 : S100000x64.Idx → EReal) (ix2 (rowAt N_4 t r) j)
    ∧ (iblk4 V c 2 t : S5000x1.Idx → EReal) (ix2 r 0) = (V c main_v8 : S100000x1.Idx → EReal) (ix2 (rowAt N_4 t r) 0)
    ∧ (iblk4 V c 3 t : S1x64.Idx → EReal) (ix2 0 j) = (V c main_v79 : S1x64.Idx → EReal) (ix2 0 j)
    ∧ (iblk4 V c 4 t : S5000x64.Idx → EReal) (ix2 r j) = (V c main_v66_1 : S100000x64.Idx → EReal) (ix2 (rowAt N_4 t r) j) := by
  obtain ⟨e0, e1, e2, e3, e4, -⟩ := emb4 t r j
  exact ⟨congrArg (V c main_v78 : S100000x64.Idx → EReal) e0, congrArg (V c main_v66_0 : S100000x64.Idx → EReal) e1,
    congrArg (V c main_v8 : S100000x1.Idx → EReal) e2, congrArg (V c main_v79 : S1x64.Idx → EReal) e3,
    congrArg (V c main_v66_1 : S100000x64.Idx → EReal) e4⟩

theorem flushed4_eq (c : Dev nD) (t : Fin cfg4.N) :
    (dat4 V c).flushed 5 t = ((cfg4.win 5).blk t).view.read (Elt Ideal) (G4 V c) := by
  show (cfg4.win 5).cut (grid4.coords t) ((dat4 V c).after 5 t) = _
  rw [after4_5]
  unfold out4_5
  rw [View.canon_unit_zero zeros2]
  simp only [View.ld_unit_zero (S := S5000x64) zeros2, View.ld_unit_zero (S := S5000x1) zeros2,
    View.ld_unit_zero (S := S1x64) zeros2]
  funext y
  obtain ⟨r, j, rfl⟩ : ∃ (r : Fin 5000) (j : Fin 64), y = ix2 r j := ⟨y 0, y 1, eq_ix2 y⟩
  show k4_pay1 (iblk4 V c 0 t) (iblk4 V c 2 t) (iblk4 V c 1 t) (iblk4 V c 3 t) (iblk4 V c 4 t) (ix2 r j)
    = G4 V c (((cfg4.win 5).blk t).view.emb (ix2 r j))
  obtain ⟨e0, e1, e2, e3, e4⟩ := at4 V c t r j
  rw [pay4_at, e0, e1, e2, e3, e4, (emb4 t r j).2.2.2.2.2]
  rfl

theorem cover4 (i : S100000x64.Idx) :
    ∃ t : Fin cfg4.N, (cfg4.win 5).flush t = true ∧ i ∈ ((cfg4.win 5).blk t).view.set := by
  obtain ⟨p, j, rfl⟩ : ∃ (p : Fin 100000) (j : Fin 64), i = ix2 p j := ⟨i 0, i 1, eq_ix2 i⟩
  obtain ⟨t, r, rfl⟩ := exists_rowAt (N := cfg4.N) N_4 p
  exact ⟨t, flush4_5 t, (emb4 t r j).2.2.2.2.2 ▸ View.emb_mem_set _ _⟩

theorem val4 (c : Dev nD) (p : Fin 100000) (j : Fin 64) :
    ((dat4 V c).arrAt 5 cfg4.N : S100000x64.Idx → EReal) (ix2 p j)
      = Cert.Gnn.paperOut false (fun p j => (V c main_v78 : S100000x64.Idx → EReal) (ix2 p j))
          (fun p j => (V c main_v66_0 : S100000x64.Idx → EReal) (ix2 p j))
          (fun p => (V c main_v8 : S100000x1.Idx → EReal) (ix2 p 0))
          (fun j => (V c main_v79 : S1x64.Idx → EReal) (ix2 0 j))
          (fun p j => (V c main_v66_1 : S100000x64.Idx → EReal) (ix2 p j)) p j := by
  rw [(dat4 V c).arrAt_eq_of_cover 5 (G4 V c) (fun t _ => flushed4_eq V c t) cover4]
  rfl

end Cert.KernelIdeal.Hand

end
-- ==== Proof.KV5.lean ====
import proofs.«430514_j6622839570447_1_alg».proof.Proof.KI.R5
import proofs.«430514_j6622839570447_1_alg».proof.Proof.Spec
import proofs.«430514_j6622839570447_1_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

theorem matA5_apply (L R : FVec Ideal S5000x128 .bf16) (l k : Fin 128) :
    matmul dot_S5000x128_S5000x128_S128x128_0_0_1_1_n_n none L R (constant (F := Ideal) S128x128 .f32 0x00000000#32) (ix2 l k)
      = ∑ r : Fin 5000, L (ix2 r l) * R (ix2 r k) := by
  simp only [matmul]
  rw [Ideal.matmul_constant_zero_apply, ← Equiv.sum_comp (contrEquiv1 dot_S5000x128_S5000x128_S128x128_0_0_1_1_n_n 5000 rfl rfl).symm]
  refine Finset.sum_congr rfl fun r _ => ?_
  congr 2 <;> funext a <;> match a with | ⟨0, _⟩ => rfl | ⟨1, _⟩ => rfl

theorem matB5_apply (L : FVec Ideal S128x128 .bf16) (R : FVec Ideal S128x64 .bf16) (l : Fin 128) (j : Fin 64) :
    matmul dot_S128x128_S128x64_S128x64_1_0_0_1_n_n none L R (constant (F := Ideal) S128x64 .f32 0x00000000#32) (ix2 l j)
      = ∑ k : Fin 128, L (ix2 l k) * R (ix2 k j) := by
  simp only [matmul]
  rw [Ideal.matmul_constant_zero_apply, ← Equiv.sum_comp (contrEquiv1 dot_S128x128_S128x64_S128x64_1_0_0_1_n_n 128 rfl rfl).symm]
  refine Finset.sum_congr rfl fun k _ => ?_
  congr 2 <;> funext a <;> match a with | ⟨0, _⟩ => rfl | ⟨1, _⟩ => rfl

theorem hz5 : (![0, 0] : Fin 2 → Nat) = fun _ => 0 := funext fun a => by fin_cases a <;> rfl

theorem acc5init_apply (i : S128x128.Idx) : acc5init (F := Ideal) i = 0 := by
  unfold acc5init k5_pay1; rw [View.canon_unit_zero hz5]
  simp only [shapeCast_self]
  exact Ideal.ofBits_zero_f32

theorem acc5step_apply (x0 x1 : Vec Ideal S5000x128 .f32) (a : Vec Ideal S128x128 .f32) (l k : Fin 128) :
    acc5step x0 x1 a (ix2 l k) = a (ix2 l k) + ∑ r : Fin 5000, x1 (ix2 r l) * x0 (ix2 r k) := by
  unfold acc5step k5_pay2; rw [View.canon_unit_zero hz5]
  simp only [View.ld_unit_zero (S := S5000x128) hz5, View.ld_unit_zero (S := S128x128) hz5, shapeCast_self]
  rw [addf_apply, matA5_apply]
  rfl

theorem out5_6_apply (a : Vec Ideal S128x128 .f32) (x2 : Vec Ideal S128x64 .f32) (x4 : Vec Ideal S128x128 .f32) (x5 : Vec Ideal S128x64 .f32)
    (x3 : Vec Ideal S1x64 .f32) (l : Fin 128) (j : Fin 64) :
    out5_6 a x2 x4 x5 x3 (ix2 l j)
      = Cert.Gnn.reluIf false
          (((∑ k : Fin 128, a (ix2 l k) * x2 (ix2 k j)) + x3 (ix2 (0 : Fin 1) j)) + ∑ k : Fin 128, x4 (ix2 l k) * x5 (ix2 k j)) := by
  unfold out5_6 k5_pay3 Cert.Gnn.reluIf
  rw [View.canon_unit_zero hz5, if_neg Bool.false_ne_true]
  simp only [View.ld_unit_zero (S := S128x128) hz5, View.ld_unit_zero (S := S128x64) hz5, View.ld_unit_zero (S := S1x64) hz5, shapeCast_self]
  rw [addf_apply, addf_apply, matB5_apply, matB5_apply, broadcastTo_1b_ab_apply]
  rfl

section Region
variable (V : (c : Dev nD) → (b : Ref sig .tc) → Buf (Elt Ideal) ((c : Thread nD τ).loc b)) (c : Dev nD)

theorem idx5_rows : ∀ t : Fin cfg5.N,
    win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

theorem idx5_zero : ∀ (t : Fin cfg5.N) (a : Fin 2),
    win5_2.index t a = 0 ∧ win5_3.index t a = 0 ∧ win5_4.index t a = 0 ∧ win5_5.index t a = 0 ∧ win5_6.index t a = 0 :=
  (by decide +kernel : ∀ t : Fin grid5.N, _)

abbrev Mt5 (p : Fin 100000) (l : Fin 128) : EReal := (V c main_v40 : S100000x128.Idx → EReal) (ix2 p l)
abbrev Xp5 (p : Fin 100000) (k : Fin 128) : EReal := (V c main_v59 : S100000x128.Idx → EReal) (ix2 p k)
abbrev blk5_0 (t : Fin cfg5.N) : Vec Ideal S5000x128 .f32 := iblk5 V c 0 t
abbrev blk5_1 (t : Fin cfg5.N) : Vec Ideal S5000x128 .f32 := iblk5 V c 1 t

theorem lt20_5 (t : Fin cfg5.N) : t.val < 20 := lt_of_lt_of_eq t.isLt (show cfg5.N = 20 from N_5)

theorem iblk5_0_apply (t : Fin cfg5.N) (r : Fin 5000) (k : Fin 128) :
    blk5_0 V c t (ix2 r k) = Xp5 V c ⟨5000 * t.val + r.val, by have := lt20_5 t; omega⟩ k := by
  obtain ⟨e0, e1, -⟩ := idx5_rows t
  show (V c main_v59 : S100000x128.Idx → EReal) (((cfg5.win 0).blk t).view.emb (ix2 r k)) = _
  refine congrArg _ (funext fun a => Fin.ext ?_)
  match a with
  | ⟨0, _⟩ => show win5_0.index t (0 : Fin 2) * 5000 + 1 * r.val = 5000 * t.val + r.val; omega
  | ⟨1, _⟩ => show win5_0.index t (1 : Fin 2) * 128 + 1 * k.val = k.val; omega

theorem iblk5_1_apply (t : Fin cfg5.N) (r : Fin 5000) (k : Fin 128) :
    blk5_1 V c t (ix2 r k) = Mt5 V c ⟨5000 * t.val + r.val, by have := lt20_5 t; omega⟩ k := by
  obtain ⟨-, -, e0, e1⟩ := idx5_rows t
  show (V c main_v40 : S100000x128.Idx → EReal) (((cfg5.win 1).blk t).view.emb (ix2 r k)) = _
  refine congrArg _ (funext fun a => Fin.ext ?_)
  match a with
  | ⟨0, _⟩ => show win5_1.index t (0 : Fin 2) * 5000 + 1 * r.val = 5000 * t.val + r.val; omega
  | ⟨1, _⟩ => show win5_1.index t (1 : Fin 2) * 128 + 1 * k.val = k.val; omega

def rowP5 (l k : Fin 128) (t : ℕ) : EReal :=
  if h : t < 20 then
    ∑ r : Fin 5000, Mt5 V c ⟨5000 * t + r.val, by omega⟩ l * Xp5 V c ⟨5000 * t + r.val, by omega⟩ k
  else 0

theorem blockSum5 (l k : Fin 128) (t : Fin cfg5.N) :
    ∑ r : Fin 5000, blk5_1 V c t (ix2 r l) * blk5_0 V c t (ix2 r k) = rowP5 V c l k t.val := by
  unfold rowP5; rw [dif_pos (lt20_5 t)]
  exact Finset.sum_congr rfl fun r _ => by rw [iblk5_0_apply, iblk5_1_apply]

theorem acc5_apply (l k : Fin 128) (n : ℕ) (h : n < cfg5.N) :
    (acc5 V c n h : S128x128.Idx → EReal) (ix2 l k) = Cert.Gnn.accFold (rowP5 V c l k) n := by
  induction n with
  | zero => rw [acc5_zero, acc5step_apply, acc5init_apply, blockSum5 V c l k ⟨0, h⟩]; rfl
  | succ n ih => rw [acc5_succ, acc5step_apply, ih, blockSum5 V c l k ⟨n + 1, h⟩]; rfl

theorem acc5_last (l k : Fin 128) (h : 19 < cfg5.N) :
    (acc5 V c 19 h : S128x128.Idx → EReal) (ix2 l k) = Cert.Gnn.mmT (Mt5 V c) (Xp5 V c) l k := by
  rw [acc5_apply, Cert.Gnn.accFold_eq, Finset.sum_range, Cert.Gnn.mmT_blocks]
  exact Finset.sum_congr rfl fun t _ => dif_pos t.isLt

theorem iblk5_2_eq (t : Fin cfg5.N) : (iblk5 V c 2 t : S128x64.Idx → EReal) = (V c main_arg16 : S128x64.Idx → EReal) :=
  funext fun y => congrArg (V c main_arg16 : S128x64.Idx → EReal) <| funext fun a =>
    Fin.ext (win5_2.rect_emb_val_of_index_zero t a (idx5_zero t a).1 y)
theorem iblk5_3_eq (t : Fin cfg5.N) : (iblk5 V c 3 t : S1x64.Idx → EReal) = (V c main_v81 : S1x64.Idx → EReal) :=
  funext fun y => congrArg (V c main_v81 : S1x64.Idx → EReal) <| funext fun a =>
    Fin.ext (win5_3.rect_emb_val_of_index_zero t a (idx5_zero t a).2.1 y)
theorem iblk5_4_eq (t : Fin cfg5.N) : (iblk5 V c 4 t : S128x128.Idx → EReal) = (V c main_v61 : S128x128.Idx → EReal) :=
  funext fun y => congrArg (V c main_v61 : S128x128.Idx → EReal) <| funext fun a =>
    Fin.ext (win5_4.rect_emb_val_of_index_zero t a (idx5_zero t a).2.2.1 y)
theorem iblk5_5_eq (t : Fin cfg5.N) : (iblk5 V c 5 t : S128x64.Idx → EReal) = (V c main_arg18 : S128x64.Idx → EReal) :=
  funext fun y => congrArg (V c main_arg18 : S128x64.Idx → EReal) <| funext fun a =>
    Fin.ext (win5_5.rect_emb_val_of_index_zero t a (idx5_zero t a).2.2.2.1 y)
theorem emb5_6 (t : Fin cfg5.N) (y : S128x64.Idx) : ((cfg5.win 6).blk t).view.emb y = y :=
  funext fun a => Fin.ext (win5_6.rect_emb_val_of_index_zero t a (idx5_zero t a).2.2.2.2 y)

def G5 : S128x64.Idx → EReal :=
  out5_6 (acc5 V c 19 (by rw [show cfg5.N = 20 from N_5]; omega)) (V c main_arg16 : S128x64.Idx → EReal)
    (V c main_v61 : S128x128.Idx → EReal) (V c main_arg18 : S128x64.Idx → EReal) (V c main_v81 : S1x64.Idx → EReal)

theorem final5 : ((dat5 V c).arrAt 6 cfg5.N : S128x64.Idx → EReal) = G5 V c := by
  have hN : 19 < cfg5.N := by rw [show cfg5.N = 20 from N_5]; omega
  refine (dat5 V c).arrAt_eq_of_cover 6 (G5 V c) (fun t hf => ?_) fun i => ⟨⟨19, hN⟩, (flush5_6 _).mpr rfl, ?_⟩
  · have h19 : t.val = 19 := by have h1 := (flush5_6 t).mp hf; have h2 := lt20_5 t; omega
    show (cfg5.win 6).cut (grid5.coords t) ((dat5 V c).after 6 t) = _
    rw [after5_6_last V c t h19, iblk5_2_eq, iblk5_3_eq, iblk5_4_eq, iblk5_5_eq]
    exact funext fun y => (congrArg (G5 V c) (emb5_6 t y)).symm
  · have h := ((cfg5.win 6).blk ⟨19, hN⟩).view.emb_mem_set i
    rwa [emb5_6] at h

theorem val5 (l : Fin 128) (j : Fin 64) :
    ((dat5 V c).arrAt 6 cfg5.N : S128x64.Idx → EReal) (ix2 l j)
      = Cert.Gnn.labelOut false
          (Cert.Gnn.mmT (fun p l => (V c main_v40 : S100000x128.Idx → EReal) (ix2 p l))
            (fun p k => (V c main_v59 : S100000x128.Idx → EReal) (ix2 p k)))
          (fun l k => (V c main_v61 : S128x128.Idx → EReal) (ix2 l k))
          (fun k j => (V c main_arg16 : S128x64.Idx → EReal) (ix2 k j))
          (fun k j => (V c main_arg18 : S128x64.Idx → EReal) (ix2 k j))
          (fun j => (V c main_v81 : S1x64.Idx → EReal) (ix2 (0 : Fin 1) j)) l j := by
  rw [final5 V c]
  unfold G5
  rw [out5_6_apply]
  simp only [acc5_last V c]
  rfl

end Region

end Cert.KernelIdeal.Hand

end
-- ==== Proof.LibScatterRows.lean ====
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

def rowsOf {N E w : Nat} (idx : IVec ⟨2, ![E, 1]⟩ w) (n : Fin N) : Finset (Fin E) :=
  Finset.univ.filter fun e => (idx (ix2 e (0 : Fin 1))).toInt = (n.val : Int)

theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.KHost0.lean ====
import proofs.«430514_j6622839570447_1_alg».proof.Proof.Gen.KernelIdeal.Launch
import proofs.«430514_j6622839570447_1_alg».proof.Proof.Spec
import proofs.«430514_j6622839570447_1_alg».proof.Proof.LibGatherRows
import proofs.«430514_j6622839570447_1_alg».proof.Proof.LibScatterRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen

variable (Vin : Valuation τ sig (Elt Ideal))

theorem h0_v44 (j : Fin 128) :
    (StableHlo.after (hostOps0 (F := Ideal)) Vin main_v44 : S1x128.Idx → EReal) (ix2 0 j)
      = (Vin main_arg12 : S128.Idx → EReal) (ix1 j) := by
  after_results_simp
  exact shapeCast_a_1a_apply (Vin (Proc.devRef .tc main_arg12) : S128.Idx → EReal) shapeCasts_S128_S1x128 0 j

theorem dotW1_apply (x : S128x128.Idx → EReal) (y : S128x128.Idx → EReal) (l : Fin 128) (j : Fin 128) :
    Host.dotGeneral (F := Ideal) (φ₁ := .bf16) (φ₂ := .bf16) dot_S128x128_S128x128_S128x128_1_0_0_1_n_n none x y (ix2 l j)
      = ∑ k : Fin 128, x (ix2 l k) * y (ix2 k j) := by
  simp only [Host.dotGeneral]
  rw [Ideal.dotGeneral_apply, ← Equiv.sum_comp (contrEquiv1 dot_S128x128_S128x128_S128x128_1_0_0_1_n_n 128 rfl rfl).symm]
  refine Finset.sum_congr rfl fun k _ => ?_
  congr 2 <;> funext a <;> match a with | ⟨0, _⟩ => rfl | ⟨1, _⟩ => rfl

theorem h0_v43 (l : Fin 128) (j : Fin 128) :
    (StableHlo.after (hostOps0 (F := Ideal)) Vin main_v43 : S128x128.Idx → EReal) (ix2 l j)
      = Cert.Gnn.mm (fun l k => (Vin main_arg1 : S128x128.Idx → EReal) (ix2 l k))
          (fun k j => (Vin main_arg11 : S128x128.Idx → EReal) (ix2 k j)) l j := by
  after_results_simp
  exact dotW1_apply (Vin (Proc.devRef .tc main_arg1)) (Vin (Proc.devRef .tc main_arg11)) l j

end Cert.KernelIdeal.HostVal

end
-- ==== Proof.KHost1.lean ====
import proofs.«430514_j6622839570447_1_alg».proof.Proof.Gen.KernelIdeal.Launch
import proofs.«430514_j6622839570447_1_alg».proof.Proof.Spec
import proofs.«430514_j6622839570447_1_alg».proof.Proof.LibGatherRows
import proofs.«430514_j6622839570447_1_alg».proof.Proof.LibScatterRows
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen

variable (Vin : Valuation τ sig (Elt Ideal))

theorem h1_v58 (j : Fin 128) :
    (StableHlo.after (hostOps1 (F := Ideal)) Vin main_v58 : S1x128.Idx → EReal) (ix2 0 j)
      = (Vin main_arg7 : S128.Idx → EReal) (ix1 j) := by
  after_results
  exact shapeCast_a_1a_apply (Vin (Proc.devRef .tc main_arg7) : S128.Idx → EReal) shapeCasts_S128_S1x128 0 j

theorem h2_v60 (j : Fin 128) :
    (StableHlo.after (hostOps2 (F := Ideal)) Vin main_v60 : S1x128.Idx → EReal) (ix2 0 j)
      = (Vin main_arg9 : S128.Idx → EReal) (ix1 j) := by
  after_results
  exact shapeCast_a_1a_apply (Vin (Proc.devRef .tc main_arg9) : S128.Idx → EReal) shapeCasts_S128_S1x128 0 j

theorem h3_v65 (j : Fin 64) :
    (StableHlo.after (hostOps3 (F := Ideal)) Vin main_v65 : S1x64.Idx → EReal) (ix2 0 j)
      = (Vin main_arg20 : S64.Idx → EReal) (ix1 j) := by
  after_results
  exact shapeCast_a_1a_apply (Vin (Proc.devRef .tc main_arg20) : S64.Idx → EReal) shapeCasts_S64_S1x64 0 j

theorem h4_v79 (j : Fin 64) :
    (StableHlo.after (hostOps4 (F := Ideal)) Vin main_v79 : S1x64.Idx → EReal) (ix2 0 j)
      = (Vin main_arg15 : S64.Idx → EReal) (ix1 j) := by
  after_results
  exact shapeCast_a_1a_apply (Vin (Proc.devRef .tc main_arg15) : S64.Idx → EReal) shapeCasts_S64_S1x64 0 j

theorem h5_v81 (j : Fin 64) :
    (StableHlo.after (hostOps5 (F := Ideal)) Vin main_v81 : S1x64.Idx → EReal) (ix2 0 j)
      = (Vin main_arg17 : S64.Idx → EReal) (ix1 j) := by
  after_results
  exact shapeCast_a_1a_apply (Vin (Proc.devRef .tc main_arg17) : S64.Idx → EReal) shapeCasts_S64_S1x64 0 j

theorem dotW2_apply (x : S128x128.Idx → EReal) (y : S128x64.Idx → EReal) (l : Fin 128) (j : Fin 64) :
    Host.dotGeneral (F := Ideal) (φ₁ := .bf16) (φ₂ := .bf16) dot_S128x128_S128x64_S128x64_1_0_0_1_n_n none x y (ix2 l j)
      = ∑ k : Fin 128, x (ix2 l k) * y (ix2 k j) := by
  simp only [Host.dotGeneral]
  rw [Ideal.dotGeneral_apply, ← Equiv.sum_comp (contrEquiv1 dot_S128x128_S128x64_S128x64_1_0_0_1_n_n 128 rfl rfl).symm]
  refine Finset.sum_congr rfl fun k _ => ?_
  congr 2 <;> funext a <;> match a with | ⟨0, _⟩ => rfl | ⟨1, _⟩ => rfl

theorem h3_v64 (l : Fin 128) (j : Fin 64) :
    (StableHlo.after (hostOps3 (F := Ideal)) Vin main_v64 : S128x64.Idx → EReal) (ix2 l j)
      = Cert.Gnn.mm (fun l k => (Vin main_v61 : S128x128.Idx → EReal) (ix2 l k))
          (fun k j => (Vin main_arg19 : S128x64.Idx → EReal) (ix2 k j)) l j := by
  after_results
  exact dotW2_apply (Vin (Proc.devRef .tc main_v61)) (Vin (Proc.devRef .tc main_arg19)) l j

end Cert.KernelIdeal.HostVal

end
-- ==== Proof.LibScatterPoints.lean ====
import Idealize.ShloMosaic.PureOps.Ideal
import Idealize.ShloMosaic.Lib.ValueIdx
import Idealize.ShloMosaic.Lib.ValueIdxRank1
import proofs.«430514_j6622839570447_1_alg».proof.Proof.LibScatterRows

noncomputable section

namespace Idealize.ShloMosaic.PointScatter

open Idealize.ShloMosaic Idealize.ShloMosaic.ValueIdx

abbrev pointDims (N C E : Nat)
    (wf : ScatterDims.WF ⟨2, ![N, C]⟩ ⟨2, ![E, 2]⟩ ⟨1, ![E]⟩ [] [0, 1] [0, 1] 1) :
    ScatterDims ⟨2, ![N, C]⟩ ⟨2, ![E, 2]⟩ ⟨1, ![E]⟩ where
  updateWindowDims := []
  insertedWindowDims := [0, 1]
  scatterDimsToOperandDims := [0, 1]
  indexVectorDim := 1
  wf := wf

def pointsOf {N C E w : Nat} (idx : IVec ⟨2, ![E, 2]⟩ w) (n : Fin N) (j : Fin C) : Finset (Fin E) :=
  Finset.univ.filter fun e =>
    (idx (ix2 e (0 : Fin 2))).toInt = (n.val : Int) ∧ (idx (ix2 e (1 : Fin 2))).toInt = (j.val : Int)

section Points
variable {N C E w : Nat}
  (wf : ScatterDims.WF ⟨2, ![N, C]⟩ ⟨2, ![E, 2]⟩ ⟨1, ![E]⟩ [] [0, 1] [0, 1] 1)

private theorem point_start (e : Fin E) (idx : IVec ⟨2, ![E, 2]⟩ w) (a : Fin 2) :
    (pointDims N C E wf).start (ix1 e) idx a = (idx (ix2 e a)).toInt := by
  unfold ScatterDims.start
  match a with
  | ⟨0, _⟩ | ⟨1, _⟩ =>
    rw [dif_pos (show _ ∈ (pointDims N C E wf).scatterDimsToOperandDims by show _ ∈ [(0 : Fin 2), 1]; decide +revert)]
    congr 2
    funext b; refine Fin.ext ?_
    match b with
    | ⟨0, _⟩ => rfl
    | ⟨1, _⟩ => rfl

private theorem point_window (u : (⟨1, ![E]⟩ : Shape).Idx) (a : Fin 2) :
    (pointDims N C E wf).window u a = 0 := by
  have h : a ∉ (pointDims N C E wf).sKept := by
    show a ∉ (List.finRange 2).filter (· ∉ [(0 : Fin 2), 1])
    revert a; decide
  unfold ScatterDims.window
  exact dif_neg h

private theorem point_resultIdx_iff (e : Fin E) (idx : IVec ⟨2, ![E, 2]⟩ w) (n : Fin N) (j : Fin C) :
    (pointDims N C E wf).resultIdx? (ix1 e) idx = some (ix2 n j) ↔
      (idx (ix2 e (0 : Fin 2))).toInt = (n.val : Int) ∧ (idx (ix2 e (1 : Fin 2))).toInt = (j.val : Int) := by
  rw [SegSum.resultIdx?_eq_some_iff]
  constructor
  · intro h
    have h0 : (pointDims N C E wf).start (ix1 e) idx 0
        + ((pointDims N C E wf).window (ix1 e) 0 : Int) = (n.val : Int) := h 0
    have h1 : (pointDims N C E wf).start (ix1 e) idx 1
        + ((pointDims N C E wf).window (ix1 e) 1 : Int) = (j.val : Int) := h 1
    rw [point_start, point_window] at h0
    rw [point_start, point_window] at h1
    exact ⟨by omega, by omega⟩
  · rintro ⟨hn, hj⟩ a
    match a with
    | ⟨0, _⟩ =>
      show (pointDims N C E wf).start (ix1 e) idx 0 + ((pointDims N C E wf).window (ix1 e) 0 : Int) = (n.val : Int)
      rw [point_start, point_window, hn]; simp
    | ⟨1, _⟩ =>
      show (pointDims N C E wf).start (ix1 e) idx 1 + ((pointDims N C E wf).window (ix1 e) 1 : Int) = (j.val : Int)
      rw [point_start, point_window, hj]; simp

end Points

theorem hostScatterAdd_points_apply {N C E w : Nat}
    (wf : ScatterDims.WF ⟨2, ![N, C]⟩ ⟨2, ![E, 2]⟩ ⟨1, ![E]⟩ [] [0, 1] [0, 1] 1)
    (x : (⟨2, ![N, C]⟩ : Shape).Idx → EReal) (idx : IVec ⟨2, ![E, 2]⟩ w)
    (upd : (⟨1, ![E]⟩ : Shape).Idx → EReal) (n : Fin N) (j : Fin C) :
    Ideal.hostScatterAdd (pointDims N C E wf) x idx upd (ix2 n j)
      = x (ix2 n j) + ∑ e ∈ pointsOf idx n j, upd (ix1 e) := by
  unfold Ideal.hostScatterAdd pointsOf
  congr 1
  rw [Finset.sum_filter, Finset.sum_filter, ← Equiv.sum_comp (idxEquiv1 (n := E)).symm]
  refine Finset.sum_congr rfl fun e _ => ?_
  show (if (pointDims N C E wf).resultIdx? (ix1 e) idx = some (ix2 n j) then upd (ix1 e) else 0) = _
  simp only [point_resultIdx_iff]

def wrap128 (i : BitVec 32) : BitVec 32 :=
  Scalar.select (IntOp.cmpi .slt i 0#32) (IntOp.addi i 128#32) i

theorem wrap128_of_col (i : BitVec 32) (n : Nat) (hn : n < 128) (h : i.toInt = (n : Int)) :
    wrap128 i = i := by
  have hs : i.slt 0#32 = false := by
    rw [BitVec.slt_eq_decide, show (0#32 : BitVec 32).toInt = 0 by decide]; exact decide_eq_false (by omega)
  show (if BitVec.ofBool (i.slt 0#32) = 1 then i + 128#32 else i) = _
  rw [hs]; rfl

end Idealize.ShloMosaic.PointScatter

end
-- ==== Proof.KHostMt.lean ====
import proofs.«430514_j6622839570447_1_alg».proof.Proof.Gen.KernelIdeal.Launch
import proofs.«430514_j6622839570447_1_alg».proof.Proof.Spec
import proofs.«430514_j6622839570447_1_alg».proof.Proof.LibGatherRows
import proofs.«430514_j6622839570447_1_alg».proof.Proof.LibScatterPoints
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen
open Idealize.ShloMosaic.PointScatter (pointDims pointsOf hostScatterAdd_points_apply wrap128 wrap128_of_col)

def wrapP (a4 : IVec S100000 32) : IVec S100000 32 :=
  select (cmpi .slt a4 (broadcastInDim S100000 ![] bcast_S_S100000 (constantI S_ 32 0#32)))
    (addi a4 (broadcastInDim S100000 ![] bcast_S_S100000 (constantI S_ 32 100000#32))) a4

def wrapL (a5 : IVec S100000 32) : IVec S100000 32 :=
  select (cmpi .slt a5 (broadcastInDim S100000 ![] bcast_S_S100000 (constantI S_ 32 0#32)))
    (addi a5 (broadcastInDim S100000 ![] bcast_S_S100000 (constantI S_ 32 128#32))) a5

def pairs (a4 a5 : IVec S100000 32) : IVec S100000x2 32 :=
  concatenate S100000x2 1
    [⟨S100000x1, broadcastInDim S100000x1 ![0] bcast_S100000_S100000x1_0 (wrapP a4)⟩,
     ⟨S100000x1, broadcastInDim S100000x1 ![0] bcast_S100000_S100000x1_0 (wrapL a5)⟩]
    concatenates_S100000x1_S100000x1_S100000x2_d1

def countTerm (a4 a5 : IVec S100000 32) : FVec Ideal S100000x128 .f32 :=
  Host.scatterAdd (F := Ideal) scatter_S100000x128_S100000x2_S100000_n_01_01_1
    (broadcastInDim S100000x128 ![] bcast_S_S100000x128 (constant (F := Ideal) S_ .f32 0x00000000#32))
    (pairs a4 a5)
    (broadcastInDim S100000 ![] bcast_S_S100000 (constant (F := Ideal) S_ .f32 0x3F800000#32))

theorem wrapP_apply (a4 : IVec S100000 32) (e : Fin 100000) :
    wrapP a4 (ix1 e) = RowGather.wrap (a4 (ix1 e)) := rfl

theorem wrapL_apply (a5 : IVec S100000 32) (e : Fin 100000) :
    wrapL a5 (ix1 e) = wrap128 (a5 (ix1 e)) := rfl

theorem column_apply (x : IVec S100000 32) (e : Fin 100000) :
    broadcastInDim S100000x1 ![0] bcast_S100000_S100000x1_0 x (ix2 e (0 : Fin 1)) = x (ix1 e) :=
  broadcastInDim_apply (s := S100000) (t := S100000x1) ![0] bcast_S100000_S100000x1_0 x (ix2 e (0 : Fin 1)) (ix1 e)
    fun a => match a with | ⟨0, _⟩ => rfl

theorem pairs_apply_0 (a4 a5 : IVec S100000 32) (e : Fin 100000) :
    pairs a4 a5 (ix2 e (0 : Fin 2)) = RowGather.wrap (a4 (ix1 e)) := by
  unfold pairs
  rw [concatenate_pair_apply_left (t := S100000x2) (s₁ := S100000x1) (s₂ := S100000x1) 1 _ _
    concatenates_S100000x1_S100000x1_S100000x2_d1 (ix2 e (0 : Fin 2)) rfl (ix2 e (0 : Fin 1))
    (fun b => by match b with | ⟨0, _⟩ => rfl | ⟨1, _⟩ => rfl)]
  rw [column_apply, wrapP_apply]

theorem pairs_apply_1 (a4 a5 : IVec S100000 32) (e : Fin 100000) :
    pairs a4 a5 (ix2 e (1 : Fin 2)) = wrap128 (a5 (ix1 e)) := by
  unfold pairs
  rw [concatenate_pair_apply_right (t := S100000x2) (s₁ := S100000x1) (s₂ := S100000x1) 1 _ _
    concatenates_S100000x1_S100000x1_S100000x2_d1 (ix2 e (1 : Fin 2)) rfl rfl (ix2 e (0 : Fin 1))
    (fun b hb => by
      match b with
      | ⟨0, _⟩ => rfl
      | ⟨1, _⟩ => exact absurd rfl hb)
    rfl]
  rw [column_apply, wrapL_apply]

theorem oneF_eq_one : (Cert.Gnn.oneF : EReal) = 1 := by
  simp [Ideal.ofBits, Ideal.ieee]

theorem pairs_hit_iff (a4 a5 : IVec S100000 32) (paper : Fin 100000 → Fin 100000) (label : Fin 100000 → Fin 128)
    (hp : ∀ e, (a4 (ix1 e)).toInt = ((paper e).val : Int)) (hl : ∀ e, (a5 (ix1 e)).toInt = ((label e).val : Int))
    (p : Fin 100000) (l : Fin 128) (e : Fin 100000) :
    ((pairs a4 a5 (ix2 e (0 : Fin 2))).toInt = (p.val : Int) ∧ (pairs a4 a5 (ix2 e (1 : Fin 2))).toInt = (l.val : Int))
      ↔ (paper e = p ∧ label e = l) := by
  rw [pairs_apply_0, pairs_apply_1,
    (RowGather.wrap_of_row (a4 (ix1 e)) (paper e).val (paper e).isLt (hp e)).1,
    wrap128_of_col (a5 (ix1 e)) (label e).val (label e).isLt (hl e), hp e, hl e]
  constructor
  · rintro ⟨h1, h2⟩
    exact ⟨Fin.ext (by exact_mod_cast h1), Fin.ext (by exact_mod_cast h2)⟩
  · rintro ⟨rfl, rfl⟩
    exact ⟨rfl, rfl⟩

theorem countTerm_apply (a4 a5 : IVec S100000 32) (paper : Fin 100000 → Fin 100000) (label : Fin 100000 → Fin 128)
    (hp : ∀ e, (a4 (ix1 e)).toInt = ((paper e).val : Int)) (hl : ∀ e, (a5 (ix1 e)).toInt = ((label e).val : Int))
    (p : Fin 100000) (l : Fin 128) :
    countTerm a4 a5 (ix2 p l) = Cert.Gnn.countMat paper label p l := by
  show Ideal.hostScatterAdd (pointDims 100000 128 100000 scatter_S100000x128_S100000x2_S100000_n_01_01_1_wf)
      (broadcastInDim S100000x128 ![] bcast_S_S100000x128 (constant (F := Ideal) S_ .f32 0x00000000#32))
      (pairs a4 a5)
      (broadcastInDim S100000 ![] bcast_S_S100000 (constant (F := Ideal) S_ .f32 0x3F800000#32)) (ix2 p l) = _
  rw [hostScatterAdd_points_apply, broadcastInDim_scalar_apply, constant_apply, Ideal.ofBits_zero_f32, zero_add]
  unfold Cert.Gnn.countMat pointsOf
  rw [Finset.filter_congr (fun e _ => pairs_hit_iff a4 a5 paper label hp hl p l e)]
  refine Finset.sum_congr rfl fun e _ => ?_
  rw [broadcastInDim_scalar_apply, constant_apply]
  exact oneF_eq_one

theorem v40_eq (Vin : Valuation τ sig (Elt Ideal)) :
    (StableHlo.after (hostOps0 (F := Ideal)) Vin (Proc.devRef .tc main_v40) : FVec Ideal S100000x128 .f32)
      = countTerm (Vin (Proc.devRef .tc main_arg4)) (Vin (Proc.devRef .tc main_arg5)) := by
  after_results_simp
  refine congrArg₂ (fun a b : IVec S100000x1 32 =>
    Host.scatterAdd (F := Ideal) scatter_S100000x128_S100000x2_S100000_n_01_01_1
      (broadcastInDim S100000x128 ![] bcast_S_S100000x128 (constant (F := Ideal) S_ .f32 0x00000000#32))
      (concatenate S100000x2 1 [⟨S100000x1, a⟩, ⟨S100000x1, b⟩] concatenates_S100000x1_S100000x1_S100000x2_d1)
      (broadcastInDim S100000 ![] bcast_S_S100000 (constant (F := Ideal) S_ .f32 0x3F800000#32))) ?_ ?_
  · after_results_simp
    rfl
  · after_results_simp
    rfl

theorem h0_v40 (Vin : Valuation τ sig (Elt Ideal)) (paper : Fin 100000 → Fin 100000) (label : Fin 100000 → Fin 128)
    (hp : ∀ e, ((Vin (Proc.devRef .tc main_arg4) : IVec S100000 32) (ix1 e)).toInt = ((paper e).val : Int))
    (hl : ∀ e, ((Vin (Proc.devRef .tc main_arg5) : IVec S100000 32) (ix1 e)).toInt = ((label e).val : Int))
    (p : Fin 100000) (l : Fin 128) :
    (StableHlo.after (hostOps0 (F := Ideal)) Vin (Proc.devRef .tc main_v40) : FVec Ideal S100000x128 .f32) (ix2 p l)
      = Cert.Gnn.countMat paper label p l := by
  rw [v40_eq Vin]
  exact countTerm_apply _ _ paper label hp hl p l

end Cert.KernelIdeal.HostVal

end
-- ==== Proof.RefGather.lean ====
import Idealize.ShloMosaic.PureOps
import Idealize.ShloMosaic.Lib.ValueIdx
import proofs.«430514_j6622839570447_1_alg».proof.Proof.LibGatherRows

noncomputable section

namespace Cert.ReferenceIdeal.RefVal

open Idealize.ShloMosaic Idealize.ShloMosaic.ValueIdx Idealize.ShloMosaic.RowGather

variable {α : Type}

abbrev flatGDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_flat_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (flatGDims N E wf) x idx (ix1 e)
      = x (ix1 (clampRow N hN (idx (ix2 e (0 : Fin 1))))) := by
  unfold Host.gather
  congr 1
  funext a
  refine Fin.ext ?_
  match a with
  | ⟨0, _⟩ =>
    show (flatGDims N E wf).start (ix1 e) idx 0 + (flatGDims N E wf).batchCoord (ix1 e) 0
      + (flatGDims N E wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (flatGDims N E wf).startIndexMap from List.mem_singleton.mpr rfl)]
    have hsi : (flatGDims N E wf).siIdx (ix1 e) ⟨List.idxOf (0 : Fin 1) (flatGDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

theorem wrapBy_of_nonneg (i n : BitVec 32) (h : 0 ≤ i.toInt) :
    Scalar.select (IntOp.cmpi .slt i 0#32) (IntOp.addi i n) i = i := by
  have hz : (0#32 : BitVec 32).toInt = 0 := by decide
  have hs : i.slt 0#32 = false := by
    rw [BitVec.slt_eq_decide, hz]; exact decide_eq_false (by omega)
  show (if BitVec.ofBool (i.slt 0#32) = 1 then i + n else i) = _
  rw [hs]; rfl

theorem clampRow_of_toInt {N : Nat} (hN : 0 < N) {w : Nat} (i : BitVec w) (r : Fin N)
    (h : i.toInt = (r.val : Int)) : clampRow N hN i = r := by
  apply Fin.ext
  show min i.toInt.toNat (N - 1) = r.val
  have := r.isLt
  rw [h]
  omega

end Cert.ReferenceIdeal.RefVal

end
-- ==== Proof.KHostDinv.lean ====
import proofs.«430514_j6622839570447_1_alg».proof.Proof.Gen.KernelIdeal.Launch
import proofs.«430514_j6622839570447_1_alg».proof.Proof.Spec
import proofs.«430514_j6622839570447_1_alg».proof.Proof.LibGatherRows
import proofs.«430514_j6622839570447_1_alg».proof.Proof.LibScatterRows
import proofs.«430514_j6622839570447_1_alg».proof.Proof.RefGather
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen

theorem citeCol_apply (x : IVec S1600000 32) (e : Fin 1600000) :
    broadcastInDim S1600000x1 ![0] bcast_S1600000_S1600000x1_0 x (ix2 e (0 : Fin 1)) = x (ix1 e) :=
  broadcastInDim_apply (s := S1600000) (t := S1600000x1) ![0] bcast_S1600000_S1600000x1_0 x (ix2 e (0 : Fin 1)) (ix1 e)
    fun a => match a with | ⟨0, _⟩ => rfl

theorem toColumn_apply {α : Type} {n : Nat} (x : (⟨1, ![n]⟩ : Shape).Idx → α)
    (h : (⟨1, ![n]⟩ : Shape).ShapeCasts ⟨2, ![n, 1]⟩) (i : Fin n) :
    shapeCast ⟨2, ![n, 1]⟩ x h (ix2 i (0 : Fin 1)) = x (ix1 i) := by
  refine shapeCast_apply x h (ix2 i (0 : Fin 1)) (ix1 i) ?_
  rw [Shape.rowMajor_val_one, Shape.rowMajor_val_two]
  show i.val = i.val * 1 + 0
  omega

theorem hostRsqrt_apply {s : Shape} {φ : FTy} (x : FVec Ideal s φ) (i : s.Idx) :
    Host.rsqrt x i = Ideal.rsqrt (x i) := rfl

theorem scatDeg_apply (x : FVec Ideal S100000 .f32) (idx : IVec S1600000x1 32) (upd : FVec Ideal S1600000 .f32)
    (p : Fin 100000) :
    Host.scatterAdd (F := Ideal) scatter_S100000_S1600000x1_S1600000_n_0_0_1 x idx upd (ix1 p)
      = x (ix1 p) + ∑ e ∈ SegSum.rowsOf idx p, upd (ix1 e) :=
  SegSum.hostScatterAdd_flat_apply scatter_S100000_S1600000x1_S1600000_n_0_0_1_wf x idx upd p

theorem gatherDinv_apply (x : FVec Ideal S100000 .f32) (idx : IVec S1600000x1 32) (e : Fin 1600000) :
    Host.gather gather_S100000_S1600000x1_S1600000_n_0_n_n_0_1_1 x idx (ix1 e)
      = x (ix1 (RowGather.clampRow 100000 (by decide) (idx (ix2 e (0 : Fin 1))))) :=
  Cert.ReferenceIdeal.RefVal.gather_flat_apply (by decide) gather_S100000_S1600000x1_S1600000_n_0_n_n_0_1_1_wf x idx e

def degTerm (a3 : IVec S1600000 32) : FVec Ideal S100000 .f32 :=
  Host.scatterAdd (F := Ideal) scatter_S100000_S1600000x1_S1600000_n_0_0_1
    (broadcastInDim S100000 ![] bcast_S_S100000 (constant (F := Ideal) S_ .f32 0x00000000#32))
    (broadcastInDim S1600000x1 ![0] bcast_S1600000_S1600000x1_0 a3)
    (broadcastInDim S1600000 ![] bcast_S_S1600000 (constant (F := Ideal) S_ .f32 0x3F800000#32))

def dinvTerm (a3 : IVec S1600000 32) : FVec Ideal S100000 .f32 :=
  Host.rsqrt (addf (degTerm a3) (broadcastInDim S100000 ![] bcast_S_S100000 (constant (F := Ideal) S_ .f32 0x3F800000#32)))

def dinv2Term (a3 : IVec S1600000 32) : FVec Ideal S100000x1 .f32 :=
  shapeCast S100000x1 (mulf (dinvTerm a3) (dinvTerm a3)) shapeCasts_S100000_S100000x1

def wrapCol (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

def normTerm (a2 a3 : IVec S1600000 32) : FVec Ideal S1600000x1 .f32 :=
  shapeCast S1600000x1
    (mulf (Host.gather gather_S100000_S1600000x1_S1600000_n_0_n_n_0_1_1 (dinvTerm a3) (wrapCol a2))
      (Host.gather gather_S100000_S1600000x1_S1600000_n_0_n_n_0_1_1 (dinvTerm a3) (wrapCol a3)))
    shapeCasts_S1600000_S1600000x1

theorem degTerm_apply (a3 : IVec S1600000 32) (p : Fin 100000) :
    degTerm a3 (ix1 p)
      = Cert.Gnn.zeroF + ∑ _e ∈ Cert.Gnn.landOf (fun e => a3 (ix1 e)) p, Cert.Gnn.oneF := by
  have hrows : SegSum.rowsOf (broadcastInDim S1600000x1 ![0] bcast_S1600000_S1600000x1_0 a3) p
      = Cert.Gnn.landOf (fun e => a3 (ix1 e)) p := by
    unfold SegSum.rowsOf Cert.Gnn.landOf
    exact Finset.filter_congr fun e _ => by rw [citeCol_apply]
  unfold degTerm
  rw [scatDeg_apply, hrows, broadcastInDim_scalar_apply, constant_apply]
  refine congrArg (fun t => Cert.Gnn.zeroF + t) (Finset.sum_congr rfl fun e _ => ?_)
  rw [broadcastInDim_scalar_apply, constant_apply]

theorem dinvTerm_apply (a3 : IVec S1600000 32) (p : Fin 100000) :
    dinvTerm a3 (ix1 p) = Cert.Gnn.dinvOf (fun e => a3 (ix1 e)) p := by
  unfold dinvTerm
  rw [hostRsqrt_apply, addf_apply, degTerm_apply, broadcastInDim_scalar_apply, constant_apply]
  unfold Cert.Gnn.dinvOf
  simp only [Ideal.hostUnary_rsqrt_def, Ideal.addf_def, Ideal.ofBits_def]

theorem dinv2Term_apply (a3 : IVec S1600000 32) (p : Fin 100000) :
    dinv2Term a3 (ix2 p (0 : Fin 1))
      = Cert.Gnn.dinvOf (fun e => a3 (ix1 e)) p * Cert.Gnn.dinvOf (fun e => a3 (ix1 e)) p := by
  unfold dinv2Term
  rw [toColumn_apply, mulf_apply, dinvTerm_apply]

theorem wrapCol_apply (a : IVec S1600000 32) (e : Fin 1600000) :
    wrapCol a (ix2 e (0 : Fin 1)) = RowGather.wrap (a (ix1 e)) := by
  unfold wrapCol
  rw [citeCol_apply]
  rfl

theorem normTerm_apply (a2 a3 : IVec S1600000 32) (e : Fin 1600000) :
    normTerm a2 a3 (ix2 e (0 : Fin 1))
      = Cert.Gnn.normOf (fun e => a2 (ix1 e)) (fun e => a3 (ix1 e)) e := by
  unfold normTerm
  rw [toColumn_apply, mulf_apply, gatherDinv_apply, gatherDinv_apply, wrapCol_apply, wrapCol_apply,
    dinvTerm_apply, dinvTerm_apply]
  unfold Cert.Gnn.normOf Cert.Gnn.rowOf
  rfl

theorem h0_v8 (Vin : Valuation τ sig (Elt Ideal)) (p : Fin 100000) :
    (StableHlo.after (hostOps0 (F := Ideal)) Vin (Proc.devRef .tc main_v8) : FVec Ideal S100000x1 .f32) (ix2 p (0 : Fin 1))
      = Cert.Gnn.dinvOf (fun e => (Vin (Proc.devRef .tc main_arg3) : IVec S1600000 32) (ix1 e)) p
        * Cert.Gnn.dinvOf (fun e => (Vin (Proc.devRef .tc main_arg3) : IVec S1600000 32) (ix1 e)) p := by
  after_results_simp
  exact dinv2Term_apply (Vin (Proc.devRef .tc main_arg3)) p

theorem h0_v24 (Vin : Valuation τ sig (Elt Ideal)) (e : Fin 1600000) :
    (StableHlo.after (hostOps0 (F := Ideal)) Vin (Proc.devRef .tc main_v24) : FVec Ideal S1600000x1 .f32) (ix2 e (0 : Fin 1))
      = Cert.Gnn.normOf (fun e => (Vin (Proc.devRef .tc main_arg2) : IVec S1600000 32) (ix1 e))
          (fun e => (Vin (Proc.devRef .tc main_arg3) : IVec S1600000 32) (ix1 e)) e := by
  after_results_simp
  exact normTerm_apply (Vin (Proc.devRef .tc main_arg2)) (Vin (Proc.devRef .tc main_arg3)) e

end Cert.KernelIdeal.HostVal

end
-- ==== Proof.KHostAgg.lean ====
import proofs.«430514_j6622839570447_1_alg».proof.Proof.Gen.KernelIdeal.Launch
import proofs.«430514_j6622839570447_1_alg».proof.Proof.Spec
import proofs.«430514_j6622839570447_1_alg».proof.Proof.LibGatherRows
import proofs.«430514_j6622839570447_1_alg».proof.Proof.LibScatterRows
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.HostVal

open Idealize.ShloMosaic Idealize.ShloMosaic.TcCoe Idealize.ShloMosaic.ValueIdx
open Cert.KernelIdeal Cert.KernelIdeal.Gen

def wrapSrc (a2 : IVec S1600000 32) : IVec S1600000 32 :=
  select (cmpi .slt a2 (broadcastInDim S1600000 ![] bcast_S_S1600000 (constantI S_ 32 0#32)))
    (addi a2 (broadcastInDim S1600000 ![] bcast_S_S1600000 (constantI S_ 32 100000#32))) a2

theorem wrapSrc_apply (a2 : IVec S1600000 32) (e : Fin 1600000) :
    wrapSrc a2 (ix1 e) = RowGather.wrap (a2 (ix1 e)) := rfl

theorem edgeCol_apply (x : IVec S1600000 32) (e : Fin 1600000) :
    broadcastInDim S1600000x1 ![0] bcast_S1600000_S1600000x1_0 x (ix2 e (0 : Fin 1)) = x (ix1 e) :=
  broadcastInDim_apply (s := S1600000) (t := S1600000x1) ![0] bcast_S1600000_S1600000x1_0 x (ix2 e (0 : Fin 1)) (ix1 e)
    fun a => match a with | ⟨0, _⟩ => rfl

theorem rowsOf_dstCol (a3 : IVec S1600000 32) (p : Fin 100000) :
    SegSum.rowsOf (broadcastInDim S1600000x1 ![0] bcast_S1600000_S1600000x1_0 a3) p
      = Cert.Gnn.landOf (fun e => a3 (ix1 e)) p := by
  unfold SegSum.rowsOf Cert.Gnn.landOf
  exact Finset.filter_congr fun e _ => by rw [edgeCol_apply]

section Width
variable {C : ℕ} (G : GatherDims ⟨2, ![100000, C]⟩ S1600000x1 ⟨2, ![1600000, C]⟩)
  (S : ScatterDims ⟨2, ![100000, C]⟩ S1600000x1 ⟨2, ![1600000, C]⟩)
  (bz : S_.BroadcastsInDim ⟨2, ![100000, C]⟩ ![]) (bw : S1600000x1.BroadcastsInDim ⟨2, ![1600000, C]⟩ ![0, 1])
  (h : FVec Ideal ⟨2, ![100000, C]⟩ .f32) (a2 a3 : IVec S1600000 32) (nrm : FVec Ideal S1600000x1 .f32)

-- The citation aggregate at any width C: each edge's source row, weighed by the edge, is added into its target row.
def aggTerm : FVec Ideal ⟨2, ![100000, C]⟩ .f32 :=
  Host.scatterAdd (F := Ideal) S
    (broadcastInDim ⟨2, ![100000, C]⟩ ![] bz (constant (F := Ideal) S_ .f32 0x00000000#32))
    (broadcastInDim S1600000x1 ![0] bcast_S1600000_S1600000x1_0 a3)
    (mulf (Host.gather G h (broadcastInDim S1600000x1 ![0] bcast_S1600000_S1600000x1_0 (wrapSrc a2)))
      (broadcastInDim ⟨2, ![1600000, C]⟩ ![0, 1] bw nrm))

theorem scat_apply (swf) (x : FVec Ideal ⟨2, ![100000, C]⟩ .f32) (idx : IVec S1600000x1 32)
    (upd : FVec Ideal ⟨2, ![1600000, C]⟩ .f32) (p : Fin 100000) (j : Fin C) :
    Host.scatterAdd (F := Ideal) (SegSum.rowsDims 100000 1600000 C swf) x idx upd (ix2 p j)
      = x (ix2 p j) + ∑ e ∈ SegSum.rowsOf idx p, upd (ix2 e j) :=
  SegSum.hostScatterAdd_rows_apply swf x idx upd p j

theorem weightRow_apply (e : Fin 1600000) (j : Fin C) :
    broadcastInDim ⟨2, ![1600000, C]⟩ ![0, 1] bw nrm (ix2 e j) = nrm (ix2 e (0 : Fin 1)) :=
  broadcastInDim_apply (s := S1600000x1) ![0, 1] bw nrm (ix2 e j) (ix2 e (0 : Fin 1))
    fun a => match a with | ⟨0, _⟩ => rfl | ⟨1, _⟩ => rfl

theorem aggTerm_apply (gwf) (swf) (hG : G = RowGather.rowDims 100000 C 1600000 gwf) (hS : S = SegSum.rowsDims 100000 1600000 C swf)
    (p : Fin 100000) (j : Fin C) :
    aggTerm G S bz bw h a2 a3 nrm (ix2 p j)
      = Cert.Gnn.aggCites (Cert.Gnn.landOf (fun e => a3 (ix1 e))) (fun e => Cert.Gnn.rowOf (a2 (ix1 e)))
          (fun e => nrm (ix2 e (0 : Fin 1))) (fun p j => h (ix2 p j)) p j := by
  subst hG hS
  unfold aggTerm
  rw [scat_apply, broadcastInDim_scalar_apply, constant_apply, Ideal.ofBits_zero_f32, zero_add, rowsOf_dstCol]
  unfold Cert.Gnn.aggCites
  refine Finset.sum_congr rfl fun e _ => ?_
  rw [mulf_apply, weightRow_apply, RowGather.gather_rows_apply (N := 100000) (by decide) gwf, edgeCol_apply, wrapSrc_apply]
  rfl

end Width

theorem h1_v57 (Vin : Valuation τ sig (Elt Ideal)) (p : Fin 100000) (j : Fin 128) :
    (StableHlo.after (hostOps1 (F := Ideal)) Vin (Proc.devRef .tc main_v57) : FVec Ideal S100000x128 .f32) (ix2 p j)
      = Cert.Gnn.aggCites
          (Cert.Gnn.landOf (fun e => (Vin (Proc.devRef .tc main_arg3) : IVec S1600000 32) (ix1 e)))
          (fun e => Cert.Gnn.rowOf ((Vin (Proc.devRef .tc main_arg2) : IVec S1600000 32) (ix1 e)))
          (fun e => (Vin (Proc.devRef .tc main_v24) : FVec Ideal S1600000x1 .f32) (ix2 e 0))
          (fun p j => (Vin (Proc.devRef .tc main_v45_0) : FVec Ideal S100000x128 .f32) (ix2 p j)) p j := by
  after_results_simp
  exact aggTerm_apply gather_S100000x128_S1600000x1_S1600000x128_1_0_n_n_0_1_1128 scatter_S100000x128_S1600000x1_S1600000x128_1_0_0_1
    bcast_S_S100000x128 bcast_S1600000x1_S1600000x128_0_1 (Vin (Proc.devRef .tc main_v45_0)) (Vin (Proc.devRef .tc main_arg2))
    (Vin (Proc.devRef .tc main_arg3)) (Vin (Proc.devRef .tc main_v24)) gather_S100000x128_S1600000x1_S1600000x128_1_0_n_n_0_1_1128_wf
    scatter_S100000x128_S1600000x1_S1600000x128_1_0_0_1_wf rfl rfl p j

end Cert.KernelIdeal.HostVal

end
-- ==== Proof.KHostAgg4.lean ====
import proofs.«430514_j6622839570447_1_alg».proof.Proof.KHostAgg

noncomputable section

namespace Cert.KernelIdeal.HostVal

open Idealize.ShloMosaic Idealize.ShloMosaic.TcCoe Idealize.ShloMosaic.ValueIdx
open Cert.KernelIdeal Cert.KernelIdeal.Gen

theorem h4_v78 (Vin : Valuation τ sig (Elt Ideal)) (p : Fin 100000) (j : Fin 64) :
    (StableHlo.after (hostOps4 (F := Ideal)) Vin (Proc.devRef .tc main_v78) : FVec Ideal S100000x64 .f32) (ix2 p j)
      = Cert.Gnn.aggCites (Cert.Gnn.landOf (fun e => (Vin (Proc.devRef .tc main_arg3) : IVec S1600000 32) (ix1 e)))
          (fun e => Cert.Gnn.rowOf ((Vin (Proc.devRef .tc main_arg2) : IVec S1600000 32) (ix1 e)))
          (fun e => (Vin (Proc.devRef .tc main_v24) : FVec Ideal S1600000x1 .f32) (ix2 e 0))
          (fun p j => (Vin (Proc.devRef .tc main_v66_0) : FVec Ideal S100000x64 .f32) (ix2 p j)) p j := by
  after_results_simp
  exact aggTerm_apply gather_S100000x64_S1600000x1_S1600000x64_1_0_n_n_0_1_164 scatter_S100000x64_S1600000x1_S1600000x64_1_0_0_1
    bcast_S_S100000x64 bcast_S1600000x1_S1600000x64_0_1 (Vin (Proc.devRef .tc main_v66_0)) (Vin (Proc.devRef .tc main_arg2))
    (Vin (Proc.devRef .tc main_arg3)) (Vin (Proc.devRef .tc main_v24)) gather_S100000x64_S1600000x1_S1600000x64_1_0_n_n_0_1_164_wf
    scatter_S100000x64_S1600000x1_S1600000x64_1_0_0_1_wf rfl rfl p j

end Cert.KernelIdeal.HostVal

end
-- ==== Proof.KChain.lean ====
import proofs.«430514_j6622839570447_1_alg».proof.Proof.KI.Run
import proofs.«430514_j6622839570447_1_alg».proof.Proof.KerNet
import proofs.«430514_j6622839570447_1_alg».proof.Proof.Spec
import proofs.«430514_j6622839570447_1_alg».proof.Proof.KV0
import proofs.«430514_j6622839570447_1_alg».proof.Proof.KV1
import proofs.«430514_j6622839570447_1_alg».proof.Proof.KV2
import proofs.«430514_j6622839570447_1_alg».proof.Proof.KV3
import proofs.«430514_j6622839570447_1_alg».proof.Proof.KV4
import proofs.«430514_j6622839570447_1_alg».proof.Proof.KV5
import proofs.«430514_j6622839570447_1_alg».proof.Proof.KHost0
import proofs.«430514_j6622839570447_1_alg».proof.Proof.KHost1
import proofs.«430514_j6622839570447_1_alg».proof.Proof.KHostMt
import proofs.«430514_j6622839570447_1_alg».proof.Proof.KHostDinv
import proofs.«430514_j6622839570447_1_alg».proof.Proof.KHostAgg
import proofs.«430514_j6622839570447_1_alg».proof.Proof.KHostAgg4

noncomputable section

namespace Cert.KernelIdeal.Hand

open Idealize.ShloMosaic Idealize.ShloMosaic.TcCoe Idealize.ShloMosaic.ValueIdx
open Idealize.SL.Sem
open Cert.KernelIdeal Cert.KernelIdeal.Gen Cert.Gnn

variable (m : (ℓ : Loc nD τ sig) → Buf (Elt Ideal) ℓ) (c : Dev nD)

theorem congrArg₅ {α₁ α₂ α₃ α₄ α₅ β : Type} (f : α₁ → α₂ → α₃ → α₄ → α₅ → β) {a₁ b₁ : α₁} {a₂ b₂ : α₂} {a₃ b₃ : α₃}
    {a₄ b₄ : α₄} {a₅ b₅ : α₅} (h₁ : a₁ = b₁) (h₂ : a₂ = b₂) (h₃ : a₃ = b₃) (h₄ : a₄ = b₄) (h₅ : a₅ = b₅) :
    f a₁ a₂ a₃ a₄ a₅ = f b₁ b₂ b₃ b₄ b₅ := by subst h₁ h₂ h₃ h₄ h₅; rfl

-- The valuation at each of the thirteen boundaries of the run.
def Ws : ℕ → Valuation τ sig (Elt Ideal)
  | 0 => W0 m c | 1 => W1 m c | 2 => W2 m c | 3 => W3 m c | 4 => W4 m c | 5 => W5 m c | 6 => W6 m c
  | 7 => W7 m c | 8 => W8 m c | 9 => W9 m c | 10 => W10 m c | 11 => W11 m c | _ => W12 m c

abbrev In {r : ℕ} (cfg : Pipeline.Cfg sig Λ₀) (spec : Fin cfg.W → Pipeline.WinSpec sig r) (b : Ref sig .tc) : Prop :=
  ∀ w, Pipeline.arrRef spec w = b → (cfg.win w).isOut = false

-- Step `n`, from boundary `n` to boundary `n + 1`, leaves `b` as it was.
def leaves (b : Ref sig .tc) : ℕ → Bool
  | 0 => b ∉ hostOps0_W | 1 => In cfg0 spec0 b | 2 => b ∉ hostOps1_W | 3 => In cfg1 spec1 b
  | 4 => b ∉ hostOps2_W | 5 => In cfg2 spec2 b | 6 => b ∉ hostOps3_W | 7 => In cfg3 spec3 b
  | 8 => b ∉ hostOps4_W | 9 => In cfg4 spec4 b | 10 => b ∉ hostOps5_W | 11 => In cfg5 spec5 b | _ => false

theorem Ws_step (b : Ref sig .tc) : ∀ n, leaves b n → Ws m c (n + 1) (Proc.devRef .tc b) = Ws m c n (Proc.devRef .tc b)
  | 0, h => W1_of m c b (of_decide_eq_true h) | 1, h => W2_keep m c b (of_decide_eq_true h)
  | 2, h => W3_of m c b (of_decide_eq_true h) | 3, h => W4_keep m c b (of_decide_eq_true h)
  | 4, h => W5_of m c b (of_decide_eq_true h) | 5, h => W6_keep m c b (of_decide_eq_true h)
  | 6, h => W7_of m c b (of_decide_eq_true h) | 7, h => W8_keep m c b (of_decide_eq_true h)
  | 8, h => W9_of m c b (of_decide_eq_true h) | 9, h => W10_keep m c b (of_decide_eq_true h)
  | 10, h => W11_of m c b (of_decide_eq_true h) | 11, h => W12_keep m c b (of_decide_eq_true h)
  | _ + 12, h => (Bool.false_ne_true h).elim

-- If steps `j, …, j + d - 1` all leave `b` as it was, `b` reads the same at boundary `j + d` as at boundary `j`.
theorem Ws_eq (b : Ref sig .tc) (j : ℕ) : ∀ d, (∀ i < d, leaves b (j + i)) →
    Ws m c (j + d) (Proc.devRef .tc b) = Ws m c j (Proc.devRef .tc b)
  | 0, _ => rfl
  | d + 1, h => (Ws_step m c b (j + d) (h d d.lt_succ_self)).trans (Ws_eq b j d fun i hi => h i (hi.trans d.lt_succ_self))

theorem Ws_at (b : Ref sig .tc) (j d : ℕ) {x} (h : ∀ i < d, leaves b (j + i) := by decide) :
    Ws m c (j + d) (Proc.devRef .tc b) x = Ws m c j (Proc.devRef .tc b) x := congrFun (Ws_eq m c b j d h) x

variable (paper : Fin 100000 → Fin 100000) (label : Fin 100000 → Fin 128)
  (hp : ∀ e, ((m ((c.tc : Thread nD τ).loc main_arg4) : S100000.Idx → BitVec 32) (ix1 e)).toInt = (paper e).val)
  (hl : ∀ e, ((m ((c.tc : Thread nD τ).loc main_arg5) : S100000.Idx → BitVec 32) (ix1 e)).toInt = (label e).val)

local notation "𝐍" => KerVal.netOf m c paper label

theorem st_h1 (p : Fin 100000) (k : Fin 128) :
    (W2 m c main_v45_0 : S100000x128.Idx → EReal) (ix2 p k) = mm 𝐍.xp 𝐍.gcnW1 p k :=
  (congrFun (W2_arr m c 6) _).trans <| (val0_h (fun c b => W1 m c b) c p k).trans <| congrArg₂ (mm · · p k)
    (funext₂ fun a b => Ws_at m c main_arg0 0 1) (funext₂ fun a b => Ws_at m c main_arg6 0 1)

theorem st_agg1 (p : Fin 100000) (k : Fin 128) :
    (W3 m c main_v57 : S100000x128.Idx → EReal) (ix2 p k) = 𝐍.agg (mm 𝐍.xp 𝐍.gcnW1) p k :=
  (HostVal.h1_v57 (W2 m c) p k).trans <|
    congrArg₅ (fun cd (cs : Fin EC → BitVec 32) n h q => aggCites (landOf cd) (fun e => rowOf (cs e)) n h q k)
      (funext fun e => Ws_at m c main_arg3 0 2) (funext fun e => Ws_at m c main_arg2 0 2)
      (funext fun e => (Ws_at m c main_v24 1 1).trans (HostVal.h0_v24 (W0 m c) e))
      (funext₂ (st_h1 m c paper label)) rfl

include hp hl

theorem st_mt (p : Fin 100000) (l : Fin 128) :
    (W1 m c main_v40 : S100000x128.Idx → EReal) (ix2 p l) = countMat paper label p l :=
  HostVal.h0_v40 (W0 m c) paper label hp hl p l

theorem st_prev1 (p : Fin 100000) (k : Fin 128) :
    (W2 m c main_v45_1 : S100000x128.Idx → EReal) (ix2 p k)
      = prevK 𝐍.xp (countMat paper label) (mm 𝐍.xl 𝐍.revrelW1) 𝐍.revrootW1 𝐍.revrelb1 p k :=
  (congrFun (W2_arr m c 7) _).trans <| (val0_prev (fun c b => W1 m c b) c p k).trans <| congrArg₅ (prevK · · · · · p k)
    (funext₂ fun a b => Ws_at m c main_arg0 0 1) (funext₂ (st_mt m c paper label hp hl))
    (funext₂ (HostVal.h0_v43 (W0 m c))) (funext₂ fun a b => Ws_at m c main_arg13 0 1)
    (funext (HostVal.h0_v44 (W0 m c)))

theorem st_hp (p : Fin 100000) (k : Fin 128) : (W4 m c main_v59 : S100000x128.Idx → EReal) (ix2 p k) = 𝐍.hpK p k :=
  (congrFun (W4_arr m c 5) _).trans <| (val1 (fun c b => W3 m c b) c p k).trans <| congrArg₅ (paperOut true · · · · · p k)
    (funext₂ (st_agg1 m c paper label))
    (funext₂ fun a b => (Ws_at m c main_v45_0 2 1).trans (st_h1 m c paper label a b))
    (funext fun a => (Ws_at m c main_v8 1 2).trans (HostVal.h0_v8 (W0 m c) a))
    (funext fun j => (HostVal.h1_v58 (W2 m c) j).trans (Ws_at m c main_arg7 0 2))
    (funext₂ fun a b => (Ws_at m c main_v45_1 2 1).trans (st_prev1 m c paper label hp hl a b))

theorem st_hl (l k : Fin 128) : (W6 m c main_v61 : S128x128.Idx → EReal) (ix2 l k) = 𝐍.hlK l k :=
  (congrFun (W6_arr m c 6) _).trans <| (val2 (fun c b => W5 m c b) c l k).trans <| congrArg₅ (labelOut true · · · · · l k)
    (congrArg₂ mmT (funext₂ fun q r => (Ws_at m c main_v40 1 4).trans (st_mt m c paper label hp hl q r))
      (funext₂ fun q r => Ws_at m c main_arg0 0 5))
    (funext₂ fun a b => Ws_at m c main_arg1 0 5) (funext₂ fun a b => Ws_at m c main_arg8 0 5)
    (funext₂ fun a b => Ws_at m c main_arg10 0 5)
    (funext fun j => (HostVal.h2_v60 (W4 m c) j).trans (Ws_at m c main_arg9 0 4))

theorem st_h2 (p : Fin 100000) (k : Fin 64) :
    (W8 m c main_v66_0 : S100000x64.Idx → EReal) (ix2 p k) = mm 𝐍.hpK 𝐍.gcnW2 p k :=
  (congrFun (W8_arr m c 6) _).trans <| (val3_h (fun c b => W7 m c b) c p k).trans <| congrArg₂ (mm · · p k)
    (funext₂ fun a b => (Ws_at m c main_v59 4 3).trans (st_hp m c paper label hp hl a b))
    (funext₂ fun a b => Ws_at m c main_arg14 0 7)

theorem st_prev2 (p : Fin 100000) (k : Fin 64) :
    (W8 m c main_v66_1 : S100000x64.Idx → EReal) (ix2 p k)
      = prevK 𝐍.hpK (countMat paper label) (mm 𝐍.hlK 𝐍.revrelW2) 𝐍.revrootW2 𝐍.revrelb2 p k :=
  (congrFun (W8_arr m c 7) _).trans <| (val3_prev (fun c b => W7 m c b) c p k).trans <| congrArg₅ (prevK · · · · · p k)
    (funext₂ fun a b => (Ws_at m c main_v59 4 3).trans (st_hp m c paper label hp hl a b))
    (funext₂ fun a b => (Ws_at m c main_v40 1 6).trans (st_mt m c paper label hp hl a b))
    (funext₂ fun a b => (HostVal.h3_v64 (W6 m c) a b).trans <| congrArg₂ (mm · · a b)
      (funext₂ (st_hl m c paper label hp hl)) (funext₂ fun q r => Ws_at m c main_arg19 0 6))
    (funext₂ fun a b => Ws_at m c main_arg21 0 7)
    (funext fun j => (HostVal.h3_v65 (W6 m c) j).trans (Ws_at m c main_arg20 0 6))

theorem st_agg2 (p : Fin 100000) (k : Fin 64) :
    (W9 m c main_v78 : S100000x64.Idx → EReal) (ix2 p k) = 𝐍.agg (mm 𝐍.hpK 𝐍.gcnW2) p k :=
  (HostVal.h4_v78 (W8 m c) p k).trans <|
    congrArg₅ (fun cd (cs : Fin EC → BitVec 32) n h q => aggCites (landOf cd) (fun e => rowOf (cs e)) n h q k)
      (funext fun e => Ws_at m c main_arg3 0 8) (funext fun e => Ws_at m c main_arg2 0 8)
      (funext fun e => (Ws_at m c main_v24 1 7).trans (HostVal.h0_v24 (W0 m c) e))
      (funext₂ (st_h2 m c paper label hp hl)) rfl

theorem chain_zp (p : Fin 100000) (j : Fin 64) :
    (W12 m c main_v80 : S100000x64.Idx → EReal) (ix2 p j) = 𝐍.zpK p j :=
  (congrFun (W12_main_v80 m c) _).trans <| (val4 (fun c b => W9 m c b) c p j).trans <| congrArg₅ (paperOut false · · · · · p j)
    (funext₂ (st_agg2 m c paper label hp hl))
    (funext₂ fun a b => (Ws_at m c main_v66_0 8 1).trans (st_h2 m c paper label hp hl a b))
    (funext fun a => (Ws_at m c main_v8 1 8).trans (HostVal.h0_v8 (W0 m c) a))
    (funext fun i => (HostVal.h4_v79 (W8 m c) i).trans (Ws_at m c main_arg15 0 8))
    (funext₂ fun a b => (Ws_at m c main_v66_1 8 1).trans (st_prev2 m c paper label hp hl a b))

theorem chain_zl (l : Fin 128) (j : Fin 64) :
    (W12 m c main_v82 : S128x64.Idx → EReal) (ix2 l j) = 𝐍.zlK l j :=
  (congrFun (W12_main_v82 m c) _).trans <| (val5 (fun c b => W11 m c b) c l j).trans <| congrArg₅ (labelOut false · · · · · l j)
    (congrArg₂ mmT (funext₂ fun q r => (Ws_at m c main_v40 1 10).trans (st_mt m c paper label hp hl q r))
      (funext₂ fun q r => (Ws_at m c main_v59 4 7).trans (st_hp m c paper label hp hl q r)))
    (funext₂ fun a b => (Ws_at m c main_v61 6 5).trans (st_hl m c paper label hp hl a b))
    (funext₂ fun a b => Ws_at m c main_arg16 0 11) (funext₂ fun a b => Ws_at m c main_arg18 0 11)
    (funext fun i => (HostVal.h5_v81 (W10 m c) i).trans (Ws_at m c main_arg17 0 10))

end Cert.KernelIdeal.Hand

end
-- ==== Proof.RefNet.lean ====
import proofs.«430514_j6622839570447_1_alg».proof.ReferenceIdeal
import proofs.«430514_j6622839570447_1_alg».proof.Proof.Spec
import Idealize.ShloMosaic.Lib.ValueIdx

noncomputable section

namespace Cert.ReferenceIdeal.RefVal

open Cert.ReferenceIdeal Idealize.ShloMosaic Idealize.ShloMosaic.TcCoe Idealize.ShloMosaic.ValueIdx Idealize.SL.Sem

noncomputable def netOf (m : (ℓ : Loc nD τ sig) → Buf (Elt Ideal) ℓ) (c : Dev nD)
    (paper : Fin 100000 → Fin 100000) (label : Fin 100000 → Fin 128) : Cert.Gnn.Net where
    xp := fun a b => (m ((c.tc : Thread nD τ).loc main_arg0) : S100000x128.Idx → EReal) (ix2 a b)
    xl := fun a b => (m ((c.tc : Thread nD τ).loc main_arg1) : S128x128.Idx → EReal) (ix2 a b)
    cs := fun e => (m ((c.tc : Thread nD τ).loc main_arg2) : S1600000.Idx → BitVec 32) (ix1 e)
    cd := fun e => (m ((c.tc : Thread nD τ).loc main_arg3) : S1600000.Idx → BitVec 32) (ix1 e)
    paper := paper
    label := label
    gcnW1 := fun a b => (m ((c.tc : Thread nD τ).loc main_arg6) : S128x128.Idx → EReal) (ix2 a b)
    gcnb1 := fun a => (m ((c.tc : Thread nD τ).loc main_arg7) : S128.Idx → EReal) (ix1 a)
    isrelW1 := fun a b => (m ((c.tc : Thread nD τ).loc main_arg8) : S128x128.Idx → EReal) (ix2 a b)
    isrelb1 := fun a => (m ((c.tc : Thread nD τ).loc main_arg9) : S128.Idx → EReal) (ix1 a)
    isrootW1 := fun a b => (m ((c.tc : Thread nD τ).loc main_arg10) : S128x128.Idx → EReal) (ix2 a b)
    revrelW1 := fun a b => (m ((c.tc : Thread nD τ).loc main_arg11) : S128x128.Idx → EReal) (ix2 a b)
    revrelb1 := fun a => (m ((c.tc : Thread nD τ).loc main_arg12) : S128.Idx → EReal) (ix1 a)
    revrootW1 := fun a b => (m ((c.tc : Thread nD τ).loc main_arg13) : S128x128.Idx → EReal) (ix2 a b)
    gcnW2 := fun a b => (m ((c.tc : Thread nD τ).loc main_arg14) : S128x64.Idx → EReal) (ix2 a b)
    gcnb2 := fun a => (m ((c.tc : Thread nD τ).loc main_arg15) : S64.Idx → EReal) (ix1 a)
    isrelW2 := fun a b => (m ((c.tc : Thread nD τ).loc main_arg16) : S128x64.Idx → EReal) (ix2 a b)
    isrelb2 := fun a => (m ((c.tc : Thread nD τ).loc main_arg17) : S64.Idx → EReal) (ix1 a)
    isrootW2 := fun a b => (m ((c.tc : Thread nD τ).loc main_arg18) : S128x64.Idx → EReal) (ix2 a b)
    revrelW2 := fun a b => (m ((c.tc : Thread nD τ).loc main_arg19) : S128x64.Idx → EReal) (ix2 a b)
    revrelb2 := fun a => (m ((c.tc : Thread nD τ).loc main_arg20) : S64.Idx → EReal) (ix1 a)
    revrootW2 := fun a b => (m ((c.tc : Thread nD τ).loc main_arg21) : S128x64.Idx → EReal) (ix2 a b)

end Cert.ReferenceIdeal.RefVal

end
-- ==== Proof.RefVal1P.lean ====
import proofs.«430514_j6622839570447_1_alg».proof.Proof.Gen.ReferenceIdeal.Read
import proofs.«430514_j6622839570447_1_alg».proof.Proof.RefNet
import proofs.«430514_j6622839570447_1_alg».proof.Proof.RefGather
import proofs.«430514_j6622839570447_1_alg».proof.Proof.LibGatherRows
import proofs.«430514_j6622839570447_1_alg».proof.Proof.LibScatterRows
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.RowGather Cert.Gnn

theorem gatherDinv_apply_1P (x : FVec Ideal S100000 .f32) (idx : IVec S1600000x1 32) (e : Fin 1600000) :
    Host.gather gather_S100000_S1600000x1_S1600000_n_0_n_n_0_1_1 x idx (ix1 e)
      = x (ix1 (clampRow 100000 (by decide) (idx (ix2 e (0 : Fin 1))))) :=
  gather_flat_apply (by decide) gather_S100000_S1600000x1_S1600000_n_0_n_n_0_1_1_wf x idx e

theorem gatherH_apply_1P (x : FVec Ideal S100000x128 .f32) (idx : IVec S1600000x1 32) (e : Fin 1600000) (j : Fin 128) :
    Host.gather gather_S100000x128_S1600000x1_S1600000x128_1_0_n_n_0_1_1128 x idx (ix2 e j)
      = x (ix2 (clampRow 100000 (by decide) (idx (ix2 e (0 : Fin 1)))) j) :=
  gather_rows_apply (by decide) gather_S100000x128_S1600000x1_S1600000x128_1_0_n_n_0_1_1128_wf x idx e j

theorem gatherXl_apply_1P (x : FVec Ideal S128x128 .f32) (idx : IVec S100000x1 32) (e : Fin 100000) (k : Fin 128) :
    Host.gather gather_S128x128_S100000x1_S100000x128_1_0_n_n_0_1_1128 x idx (ix2 e k)
      = x (ix2 (clampRow 128 (by decide) (idx (ix2 e (0 : Fin 1)))) k) :=
  gather_rows_apply (by decide) gather_S128x128_S100000x1_S100000x128_1_0_n_n_0_1_1128_wf x idx e k

theorem scatDeg_apply_1P (x : FVec Ideal S100000 .f32) (idx : IVec S1600000x1 32) (upd : FVec Ideal S1600000 .f32)
    (p : Fin 100000) :
    Host.scatterAdd (F := Ideal) scatter_S100000_S1600000x1_S1600000_n_0_0_1 x idx upd (ix1 p)
      = x (ix1 p) + ∑ e ∈ SegSum.rowsOf idx p, upd (ix1 e) :=
  SegSum.hostScatterAdd_flat_apply scatter_S100000_S1600000x1_S1600000_n_0_0_1_wf x idx upd p

theorem scatCites_apply_1P (x : FVec Ideal S100000x128 .f32) (idx : IVec S1600000x1 32)
    (upd : FVec Ideal S1600000x128 .f32) (p : Fin 100000) (j : Fin 128) :
    Host.scatterAdd (F := Ideal) scatter_S100000x128_S1600000x1_S1600000x128_1_0_0_1 x idx upd (ix2 p j)
      = x (ix2 p j) + ∑ e ∈ SegSum.rowsOf idx p, upd (ix2 e j) :=
  SegSum.hostScatterAdd_rows_apply scatter_S100000x128_S1600000x1_S1600000x128_1_0_0_1_wf x idx upd p j

theorem scatPaper_apply_1P (x : FVec Ideal S100000x128 .f32) (idx : IVec S100000x1 32)
    (upd : FVec Ideal S100000x128 .f32) (p : Fin 100000) (k : Fin 128) :
    Host.scatterAdd (F := Ideal) scatter_S100000x128_S100000x1_S100000x128_1_0_0_1 x idx upd (ix2 p k)
      = x (ix2 p k) + ∑ e ∈ SegSum.rowsOf idx p, upd (ix2 e k) :=
  SegSum.hostScatterAdd_rows_apply scatter_S100000x128_S100000x1_S100000x128_1_0_0_1_wf x idx upd p k

section Layer1

variable {x0 : FVec Ideal S100000x128 .f32} {x1 : FVec Ideal S128x128 .f32} {x2 x3 : IVec S1600000 32}
  {x4 x5 : IVec S100000 32} {x6 : FVec Ideal S128x128 .f32} {x7 : FVec Ideal S128 .f32}
  {x11 : FVec Ideal S128x128 .f32} {x12 : FVec Ideal S128 .f32} {x13 : FVec Ideal S128x128 .f32}

theorem srcCol_dinv_1P (e : Fin 1600000) : val_main_v13 (F := Ideal) x2 (ix2 e (0 : Fin 1)) = wrap (x2 (ix1 e)) := by
  have hi : idx_main_v13 (ix2 e (0 : Fin 1)) = ix1 e := eq_ix1 _
  rw [val_main_v13_apply, hi, val_main_v12_apply, val_main_v9_apply, val_main_v11_apply, val_main_v8_apply,
    val_main_v10_apply, val_main_c_apply, val_main_c_2_apply]
  rfl

-- The wrapped index column is computed three times by the same term.
theorem dstCol_dinv_1P (e : Fin 1600000) : val_main_v20 (F := Ideal) x3 (ix2 e (0 : Fin 1)) = wrap (x3 (ix1 e)) :=
  srcCol_dinv_1P (x2 := x3) e

theorem srcCol_h_1P (e : Fin 1600000) : val_main_v28 (F := Ideal) x2 (ix2 e (0 : Fin 1)) = wrap (x2 (ix1 e)) :=
  srcCol_dinv_1P (x2 := x2) e

theorem labCol_gather_1P (e : Fin 100000) (h : 0 ≤ (x5 (ix1 e)).toInt) :
    val_main_v49 (F := Ideal) x5 (ix2 e (0 : Fin 1)) = x5 (ix1 e) := by
  have hi : idx_main_v49 (ix2 e (0 : Fin 1)) = ix1 e := eq_ix1 _
  rw [val_main_v49_apply, hi, val_main_v48_apply, val_main_v45_apply, val_main_v47_apply, val_main_v44_apply,
    val_main_v46_apply, val_main_c_8_apply, val_main_c_9_apply]
  exact wrapBy_of_nonneg _ _ h

theorem dinv_read_1P (p : Fin 100000) :
    val_main_v7 (F := Ideal) x3 (ix1 p) = dinvOf (fun e => x3 (ix1 e)) p := by
  have hrows : SegSum.rowsOf (val_main_v3 (F := Ideal) x3) p = landOf (fun e => x3 (ix1 e)) p := by
    unfold SegSum.rowsOf landOf
    exact Finset.filter_congr fun e _ => by rw [val_main_v3_apply, show idx_main_v3 (ix2 e (0 : Fin 1)) = ix1 e from eq_ix1 _]
  have hone : ∀ e ∈ landOf (fun e => x3 (ix1 e)) p, val_main_v1 (F := Ideal) (ix1 e) = oneF := fun e _ => by
    rw [val_main_v1_apply, val_main_cst_apply, Ideal.ofBits_def]
  rw [val_main_v7_apply, val_main_v6_apply]
  unfold val_main_v4
  rw [scatDeg_apply_1P, hrows, Finset.sum_congr rfl hone, val_main_v2_apply, val_main_cst_0_apply, val_main_v5_apply,
    val_main_cst_1_apply]
  unfold dinvOf
  simp only [Ideal.hostUnary_rsqrt_def, Ideal.addf_def, Ideal.ofBits_def]

theorem norm_read_1P (e : Fin 1600000) :
    val_main_v22 (F := Ideal) x2 x3 (ix1 e) = normOf (fun e => x2 (ix1 e)) (fun e => x3 (ix1 e)) e := by
  rw [val_main_v22_apply]
  unfold val_main_v14 val_main_v21
  rw [gatherDinv_apply_1P, gatherDinv_apply_1P, srcCol_dinv_1P, dstCol_dinv_1P, dinv_read_1P, dinv_read_1P,
    Ideal.mulf_def]
  unfold normOf rowOf
  rfl

theorem h_read_1P (p : Fin 100000) (j : Fin 128) :
    val_main_v0 (F := Ideal) x0 x6 (ix2 p j) = mm (fun a b => x0 (ix2 a b)) (fun a b => x6 (ix2 a b)) p j := by
  rw [val_main_v0_apply]
  unfold mm
  refine Finset.sum_congr rfl fun k _ => ?_
  have el : lidx_main_v0 (ix2 p j) k = ix2 p k := eq_ix2 _
  have er : ridx_main_v0 (ix2 p j) k = ix2 k j := eq_ix2 _
  rw [el, er]

theorem aggC_read_1P (p : Fin 100000) (j : Fin 128) :
    val_main_v35 (F := Ideal) x0 x2 x3 x6 (ix2 p j)
      = aggCites (landOf (fun e => x3 (ix1 e))) (fun e => rowOf (x2 (ix1 e)))
          (normOf (fun e => x2 (ix1 e)) (fun e => x3 (ix1 e)))
          (mm (fun a b => x0 (ix2 a b)) (fun a b => x6 (ix2 a b))) p j := by
  have hrows : SegSum.rowsOf (val_main_v34 (F := Ideal) x3) p = landOf (fun e => x3 (ix1 e)) p := by
    unfold SegSum.rowsOf landOf
    exact Finset.filter_congr fun e _ => by rw [val_main_v34_apply, show idx_main_v34 (ix2 e (0 : Fin 1)) = ix1 e from eq_ix1 _]
  unfold val_main_v35
  rw [scatCites_apply_1P, hrows, val_main_v33_apply, val_main_cst_7_apply, Ideal.ofBits_def, Ideal.ofBits_zero_f32,
    zero_add]
  unfold aggCites
  refine Finset.sum_congr rfl fun e _ => ?_
  have hi : idx_main_v30 (idx_main_v31 (ix2 e j)) = ix1 e := eq_ix1 _
  rw [val_main_v32_apply, val_main_v31_apply, val_main_v30_apply, hi, norm_read_1P]
  unfold val_main_v29
  rw [gatherH_apply_1P, srcCol_h_1P, h_read_1P, Ideal.mulf_def]
  unfold rowOf
  rfl

theorem ocites_read_1P (p : Fin 100000) (j : Fin 128) :
    val_main_v43 (F := Ideal) x0 x2 x3 x6 x7 (ix2 p j)
      = (aggCites (landOf (fun e => x3 (ix1 e))) (fun e => rowOf (x2 (ix1 e)))
            (normOf (fun e => x2 (ix1 e)) (fun e => x3 (ix1 e)))
            (mm (fun a b => x0 (ix2 a b)) (fun a b => x6 (ix2 a b))) p j
          + (dinvOf (fun e => x3 (ix1 e)) p * dinvOf (fun e => x3 (ix1 e)) p)
            * mm (fun a b => x0 (ix2 a b)) (fun a b => x6 (ix2 a b)) p j)
        + x7 (ix1 j) := by
  have hi : idx_main_v37 (idx_main_v38 (ix2 p j)) = ix1 p := eq_ix1 _
  have hb : idx_main_v41 (idx_main_v42 (ix2 p j)) = ix1 j := eq_ix1 _
  rw [val_main_v43_apply, val_main_v40_apply, val_main_v39_apply, aggC_read_1P, h_read_1P, val_main_v38_apply,
    val_main_v37_apply, hi, val_main_v36_apply, dinv_read_1P, val_main_v42_apply, val_main_v41_apply, hb]
  simp only [Ideal.addf_def, Ideal.mulf_def]

variable (paper : Fin 100000 → Fin 100000) (label : Fin 100000 → Fin 128)
  (hp : ∀ e, (x4 (ix1 e)).toInt = ((paper e).val : Int)) (hl : ∀ e, (x5 (ix1 e)).toInt = ((label e).val : Int))

include hp hl in
theorem aggRev_read_1P (p : Fin 100000) (k : Fin 128) :
    val_main_v53 (F := Ideal) x1 x4 x5 (ix2 p k) = aggRev paper label (fun a b => x1 (ix2 a b)) p k := by
  have hrows : SegSum.rowsOf (val_main_v52 (F := Ideal) x4) p = Finset.univ.filter (fun e => paper e = p) := by
    unfold SegSum.rowsOf
    refine Finset.filter_congr fun e _ => ?_
    rw [val_main_v52_apply, show idx_main_v52 (ix2 e (0 : Fin 1)) = ix1 e from eq_ix1 _, hp]
    exact ⟨fun h => Fin.ext (by exact_mod_cast h), fun h => by rw [h]⟩
  unfold val_main_v53
  rw [scatPaper_apply_1P, hrows, val_main_v51_apply, val_main_cst_10_apply, Ideal.ofBits_def, Ideal.ofBits_zero_f32,
    zero_add]
  unfold aggRev
  refine Finset.sum_congr rfl fun e _ => ?_
  unfold val_main_v50
  rw [gatherXl_apply_1P, labCol_gather_1P e (by rw [hl]; exact Int.natCast_nonneg _),
    clampRow_of_toInt _ _ (label e) (hl e)]

-- A product whose left factor is computed is the product lemma at that factor.
include hp hl in
theorem revRel_read_1P (p : Fin 100000) (j : Fin 128) :
    val_main_v54 (F := Ideal) x1 x4 x5 x11 (ix2 p j) = mm (aggRev paper label (fun a b => x1 (ix2 a b))) (fun a b => x11 (ix2 a b)) p j :=
  (h_read_1P (x0 := val_main_v53 (F := Ideal) x1 x4 x5) (x6 := x11) p j).trans
    (congrArg (mm · (fun a b => x11 (ix2 a b)) p j) (funext₂ (aggRev_read_1P paper label hp hl)))

theorem revRoot_read_1P (p : Fin 100000) (j : Fin 128) :
    val_main_v58 (F := Ideal) x0 x13 (ix2 p j) = mm (fun a b => x0 (ix2 a b)) (fun a b => x13 (ix2 a b)) p j :=
  h_read_1P (x0 := x0) (x6 := x13) p j

include hp hl in
theorem orev_read_1P (p : Fin 100000) (j : Fin 128) :
    val_main_v59 (F := Ideal) x0 x1 x4 x5 x11 x12 x13 (ix2 p j)
      = prevR (fun a b => x0 (ix2 a b)) (aggRev paper label (fun a b => x1 (ix2 a b))) (fun a b => x11 (ix2 a b))
          (fun a b => x13 (ix2 a b)) (fun a => x12 (ix1 a)) p j := by
  have hb : idx_main_v55 (idx_main_v56 (ix2 p j)) = ix1 j := eq_ix1 _
  rw [val_main_v59_apply, val_main_v57_apply, revRel_read_1P paper label hp hl, revRoot_read_1P,
    val_main_v56_apply, val_main_v55_apply, hb]
  unfold prevR
  simp only [Ideal.addf_def]

include hp hl in
theorem hp_read_1P (p : Fin 100000) (j : Fin 128) :
    val_main_v79 (F := Ideal) x0 x1 x2 x3 x4 x5 x6 x7 x11 x12 x13 (ix2 p j)
      = paperOut true
          (aggCites (landOf (fun e => x3 (ix1 e))) (fun e => rowOf (x2 (ix1 e)))
            (normOf (fun e => x2 (ix1 e)) (fun e => x3 (ix1 e)))
            (mm (fun a b => x0 (ix2 a b)) (fun a b => x6 (ix2 a b))))
          (mm (fun a b => x0 (ix2 a b)) (fun a b => x6 (ix2 a b)))
          (fun q => dinvOf (fun e => x3 (ix1 e)) q * dinvOf (fun e => x3 (ix1 e)) q) (fun a => x7 (ix1 a))
          (prevR (fun a b => x0 (ix2 a b)) (aggRev paper label (fun a b => x1 (ix2 a b))) (fun a b => x11 (ix2 a b))
            (fun a b => x13 (ix2 a b)) (fun a => x12 (ix1 a)))
          p j := by
  rw [val_main_v79_apply, val_main_v62_apply, val_main_v60_apply, ocites_read_1P, orev_read_1P paper label hp hl,
    val_main_v61_apply, val_main_cst_11_apply, val_main_call0_v0_apply, val_main_call0_cst_apply]
  unfold paperOut reluIf
  simp only [Ideal.addf_def, Ideal.mulf_def, Ideal.maximumf_def, Ideal.ofBits_def, if_true]

end Layer1

theorem ref_hp_1P (m : (ℓ : Loc nD τ sig) → Buf (Elt Ideal) ℓ) (c : Dev nD)
    (paper : Fin 100000 → Fin 100000) (label : Fin 100000 → Fin 128)
    (hp : ∀ e, ((m ((c.tc : Thread nD τ).loc main_arg4) : S100000.Idx → BitVec 32) (ix1 e)).toInt = ((paper e).val : Int))
    (hl : ∀ e, ((m ((c.tc : Thread nD τ).loc main_arg5) : S100000.Idx → BitVec 32) (ix1 e)).toInt = ((label e).val : Int))
    (p : Fin 100000) (k : Fin 128) :
    (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) : S100000x128.Idx → EReal) (ix2 p k)
      = (netOf m c paper label).hpR p k :=
  hp_read_1P paper label hp hl p k

end Cert.ReferenceIdeal.RefVal

end
-- ==== Proof.RefVal1L.lean ====
import proofs.«430514_j6622839570447_1_alg».proof.Proof.Gen.ReferenceIdeal.Read
import proofs.«430514_j6622839570447_1_alg».proof.Proof.RefNet
import proofs.«430514_j6622839570447_1_alg».proof.Proof.RefGather
import proofs.«430514_j6622839570447_1_alg».proof.Proof.LibGatherRows
import proofs.«430514_j6622839570447_1_alg».proof.Proof.LibScatterRows
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.RowGather Cert.Gnn

theorem gatherXp_1L (x : FVec Ideal S100000x128 .f32) (idx : IVec S100000x1 32) (e : Fin 100000) (k : Fin 128) :
    Host.gather gather_S100000x128_S100000x1_S100000x128_1_0_n_n_0_1_1128 x idx (ix2 e k)
      = x (ix2 (clampRow 100000 (by decide) (idx (ix2 e (0 : Fin 1)))) k) :=
  gather_rows_apply (by decide) gather_S100000x128_S100000x1_S100000x128_1_0_n_n_0_1_1128_wf x idx e k

theorem scatLab_1L (x : FVec Ideal S128x128 .f32) (idx : IVec S100000x1 32) (upd : FVec Ideal S100000x128 .f32)
    (l k : Fin 128) :
    Host.scatterAdd (F := Ideal) scatter_S128x128_S100000x1_S100000x128_1_0_0_1 x idx upd (ix2 l k)
      = x (ix2 l k) + ∑ e ∈ SegSum.rowsOf idx l, upd (ix2 e k) :=
  SegSum.hostScatterAdd_rows_apply scatter_S128x128_S100000x1_S100000x128_1_0_0_1_wf x idx upd l k

section Layer1Labels

variable {x0 : FVec Ideal S100000x128 .f32} {x1 : FVec Ideal S128x128 .f32} {x4 x5 : IVec S100000 32}
  {x8 : FVec Ideal S128x128 .f32} {x9 : FVec Ideal S128 .f32} {x10 : FVec Ideal S128x128 .f32}

theorem papCol_1L (e : Fin 100000) (h : 0 ≤ (x4 (ix1 e)).toInt) :
    val_main_v68 (F := Ideal) x4 (ix2 e (0 : Fin 1)) = x4 (ix1 e) := by
  have hi : idx_main_v68 (ix2 e (0 : Fin 1)) = ix1 e := eq_ix1 _
  rw [val_main_v68_apply, hi, val_main_v67_apply, val_main_v64_apply, val_main_v66_apply, val_main_v63_apply,
    val_main_v65_apply, val_main_c_12_apply, val_main_c_13_apply]
  exact wrapBy_of_nonneg _ _ h

variable (paper : Fin 100000 → Fin 100000) (label : Fin 100000 → Fin 128)
  (hp : ∀ e, (x4 (ix1 e)).toInt = ((paper e).val : Int)) (hl : ∀ e, (x5 (ix1 e)).toInt = ((label e).val : Int))

include hp hl in
theorem aggLab_1L (l k : Fin 128) :
    val_main_v72 (F := Ideal) x0 x4 x5 (ix2 l k) = aggLab paper label (fun a b => x0 (ix2 a b)) l k := by
  have hrows : SegSum.rowsOf (val_main_v71 (F := Ideal) x5) l = Finset.univ.filter (fun e => label e = l) := by
    unfold SegSum.rowsOf
    refine Finset.filter_congr fun e _ => ?_
    rw [val_main_v71_apply, show idx_main_v71 (ix2 e (0 : Fin 1)) = ix1 e from eq_ix1 _, hl]
    exact ⟨fun h => Fin.ext (by exact_mod_cast h), fun h => by rw [h]⟩
  unfold val_main_v72
  rw [scatLab_1L, hrows, val_main_v70_apply, val_main_cst_14_apply, Ideal.ofBits_def, Ideal.ofBits_zero_f32, zero_add]
  unfold aggLab
  refine Finset.sum_congr rfl fun e _ => ?_
  unfold val_main_v69
  rw [gatherXp_1L, papCol_1L e (by rw [hp]; exact Int.natCast_nonneg _), clampRow_of_toInt _ _ (paper e) (hp e)]

theorem isRoot_1L (l j : Fin 128) :
    val_main_v77 (F := Ideal) x1 x10 (ix2 l j) = mm (fun a b => x1 (ix2 a b)) (fun a b => x10 (ix2 a b)) l j := by
  rw [val_main_v77_apply]
  unfold mm
  refine Finset.sum_congr rfl fun k _ => ?_
  have el : lidx_main_v77 (ix2 l j) k = ix2 l k := eq_ix2 _
  have er : ridx_main_v77 (ix2 l j) k = ix2 k j := eq_ix2 _
  rw [el, er]

-- A product whose left factor is computed is the product lemma at that factor.
include hp hl in
theorem isRel_1L (l j : Fin 128) :
    val_main_v73 (F := Ideal) x0 x4 x5 x8 (ix2 l j)
      = mm (aggLab paper label (fun a b => x0 (ix2 a b))) (fun a b => x8 (ix2 a b)) l j :=
  (isRoot_1L (x1 := val_main_v72 (F := Ideal) x0 x4 x5) (x10 := x8) l j).trans
    (congrArg (mm · (fun a b => x8 (ix2 a b)) l j) (funext₂ (aggLab_1L paper label hp hl)))

include hp hl in
theorem hl_read_1L (l j : Fin 128) :
    val_main_v80 (F := Ideal) x0 x1 x4 x5 x8 x9 x10 (ix2 l j)
      = labelOut true (aggLab paper label (fun a b => x0 (ix2 a b))) (fun a b => x1 (ix2 a b))
          (fun a b => x8 (ix2 a b)) (fun a b => x10 (ix2 a b)) (fun a => x9 (ix1 a)) l j := by
  have hb : idx_main_v74 (idx_main_v75 (ix2 l j)) = ix1 j := eq_ix1 _
  rw [val_main_v80_apply, val_main_v78_apply, val_main_v76_apply, isRel_1L paper label hp hl, isRoot_1L,
    val_main_v75_apply, val_main_v74_apply, hb, val_main_call1_v0_apply, val_main_call1_cst_apply]
  unfold labelOut reluIf
  simp only [Ideal.addf_def, Ideal.maximumf_def, Ideal.ofBits_def, if_true]

end Layer1Labels

theorem ref_hl (m : (ℓ : Loc nD τ sig) → Buf (Elt Ideal) ℓ) (c : Dev nD)
    (paper : Fin 100000 → Fin 100000) (label : Fin 100000 → Fin 128)
    (hp : ∀ e, ((m ((c.tc : Thread nD τ).loc main_arg4) : S100000.Idx → BitVec 32) (ix1 e)).toInt = ((paper e).val : Int))
    (hl : ∀ e, ((m ((c.tc : Thread nD τ).loc main_arg5) : S100000.Idx → BitVec 32) (ix1 e)).toInt = ((label e).val : Int))
    (l k : Fin 128) :
    (val_main_v80 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) : S128x128.Idx → EReal) (ix2 l k)
      = (netOf m c paper label).hlR l k :=
  hl_read_1L paper label hp hl l k

end Cert.ReferenceIdeal.RefVal

end
-- ==== Proof.RefVal2.lean ====
import proofs.«430514_j6622839570447_1_alg».proof.Proof.Gen.ReferenceIdeal.Read
import proofs.«430514_j6622839570447_1_alg».proof.Proof.RefNet
import proofs.«430514_j6622839570447_1_alg».proof.Proof.RefGather
import proofs.«430514_j6622839570447_1_alg».proof.Proof.LibGatherRows
import proofs.«430514_j6622839570447_1_alg».proof.Proof.LibScatterRows
import proofs.«430514_j6622839570447_1_alg».proof.Proof.RefVal1P
import proofs.«430514_j6622839570447_1_alg».proof.Proof.RefVal1L
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Idealize.ShloMosaic.RowGather Cert.Gnn

theorem gatherH_apply (x : FVec Ideal S100000x64 .f32) (idx : IVec S1600000x1 32) (e : Fin 1600000) (j : Fin 64) :
    Host.gather gather_S100000x64_S1600000x1_S1600000x64_1_0_n_n_0_1_164 x idx (ix2 e j)
      = x (ix2 (clampRow 100000 (by decide) (idx (ix2 e (0 : Fin 1)))) j) :=
  gather_rows_apply (by decide) gather_S100000x64_S1600000x1_S1600000x64_1_0_n_n_0_1_164_wf x idx e j

theorem scatCites_apply (x : FVec Ideal S100000x64 .f32) (idx : IVec S1600000x1 32) (upd : FVec Ideal S1600000x64 .f32)
    (p : Fin 100000) (j : Fin 64) :
    Host.scatterAdd (F := Ideal) scatter_S100000x64_S1600000x1_S1600000x64_1_0_0_1 x idx upd (ix2 p j)
      = x (ix2 p j) + ∑ e ∈ SegSum.rowsOf idx p, upd (ix2 e j) :=
  SegSum.hostScatterAdd_rows_apply scatter_S100000x64_S1600000x1_S1600000x64_1_0_0_1_wf x idx upd p j

section Layer2

variable {x0 : FVec Ideal S100000x128 .f32} {x1 : FVec Ideal S128x128 .f32} {x2 x3 : IVec S1600000 32}
  {x4 x5 : IVec S100000 32} {x6 : FVec Ideal S128x128 .f32} {x7 : FVec Ideal S128 .f32}
  {x8 : FVec Ideal S128x128 .f32} {x9 : FVec Ideal S128 .f32} {x10 x11 : FVec Ideal S128x128 .f32}
  {x12 : FVec Ideal S128 .f32} {x13 : FVec Ideal S128x128 .f32} {x14 : FVec Ideal S128x64 .f32}
  {x15 : FVec Ideal S64 .f32} {x16 : FVec Ideal S128x64 .f32} {x17 : FVec Ideal S64 .f32}
  {x18 x19 : FVec Ideal S128x64 .f32} {x20 : FVec Ideal S64 .f32} {x21 : FVec Ideal S128x64 .f32}

-- Layer 2 recomputes layer 1's index column, degree term and edge weight from the same arrays: the same terms.
theorem srcCol_h (e : Fin 1600000) : val_main_v109 (F := Ideal) x2 (ix2 e (0 : Fin 1)) = wrap (x2 (ix1 e)) :=
  srcCol_h_1P (x2 := x2) e

theorem dinv_read (p : Fin 100000) :
    val_main_v88 (F := Ideal) x3 (ix1 p) = dinvOf (fun e => x3 (ix1 e)) p :=
  dinv_read_1P (x3 := x3) p

theorem norm_read (e : Fin 1600000) :
    val_main_v103 (F := Ideal) x2 x3 (ix1 e) = normOf (fun e => x2 (ix1 e)) (fun e => x3 (ix1 e)) e :=
  norm_read_1P (x2 := x2) (x3 := x3) e

variable {paper : Fin 100000 → Fin 100000} {label : Fin 100000 → Fin 128}
  (hp : ∀ e, (x4 (ix1 e)).toInt = ((paper e).val : Int)) (hl : ∀ e, (x5 (ix1 e)).toInt = ((label e).val : Int))
  {HP : Fin 100000 → Fin 128 → EReal}
  (hp1 : ∀ p k, val_main_v79 (F := Ideal) x0 x1 x2 x3 x4 x5 x6 x7 x11 x12 x13 (ix2 p k) = HP p k)
  {HL : Fin 128 → Fin 128 → EReal} (hl1 : ∀ l k, val_main_v80 (F := Ideal) x0 x1 x4 x5 x8 x9 x10 (ix2 l k) = HL l k)

include hp1 in
theorem h_read (p : Fin 100000) (j : Fin 64) :
    val_main_v81 (F := Ideal) x0 x1 x2 x3 x4 x5 x6 x7 x11 x12 x13 x14 (ix2 p j) = mm HP (fun a b => x14 (ix2 a b)) p j := by
  rw [val_main_v81_apply]
  unfold mm
  refine Finset.sum_congr rfl fun k _ => ?_
  have el : lidx_main_v81 (ix2 p j) k = ix2 p k := eq_ix2 _
  have er : ridx_main_v81 (ix2 p j) k = ix2 k j := eq_ix2 _
  rw [el, er, hp1]

include hp1 in
theorem aggC_read (p : Fin 100000) (j : Fin 64) :
    val_main_v116 (F := Ideal) x0 x1 x2 x3 x4 x5 x6 x7 x11 x12 x13 x14 (ix2 p j)
      = aggCites (landOf (fun e => x3 (ix1 e))) (fun e => rowOf (x2 (ix1 e)))
          (normOf (fun e => x2 (ix1 e)) (fun e => x3 (ix1 e))) (mm HP (fun a b => x14 (ix2 a b))) p j := by
  have hrows : SegSum.rowsOf (val_main_v115 (F := Ideal) x3) p = landOf (fun e => x3 (ix1 e)) p := by
    unfold SegSum.rowsOf landOf
    exact Finset.filter_congr fun e _ => by rw [val_main_v115_apply, show idx_main_v115 (ix2 e (0 : Fin 1)) = ix1 e from eq_ix1 _]
  unfold val_main_v116
  rw [scatCites_apply, hrows, val_main_v114_apply, val_main_cst_24_apply, Ideal.ofBits_def, Ideal.ofBits_zero_f32, zero_add]
  unfold aggCites
  refine Finset.sum_congr rfl fun e _ => ?_
  have hi : idx_main_v111 (idx_main_v112 (ix2 e j)) = ix1 e := eq_ix1 _
  rw [val_main_v113_apply, val_main_v112_apply, val_main_v111_apply, hi, norm_read]
  unfold val_main_v110
  rw [gatherH_apply, srcCol_h, h_read hp1, Ideal.mulf_def]
  unfold rowOf
  rfl

include hp1 in
theorem ocites_read (p : Fin 100000) (j : Fin 64) :
    val_main_v124 (F := Ideal) x0 x1 x2 x3 x4 x5 x6 x7 x11 x12 x13 x14 x15 (ix2 p j)
      = (aggCites (landOf (fun e => x3 (ix1 e))) (fun e => rowOf (x2 (ix1 e)))
            (normOf (fun e => x2 (ix1 e)) (fun e => x3 (ix1 e))) (mm HP (fun a b => x14 (ix2 a b))) p j
          + (dinvOf (fun e => x3 (ix1 e)) p * dinvOf (fun e => x3 (ix1 e)) p) * mm HP (fun a b => x14 (ix2 a b)) p j)
        + x15 (ix1 j) := by
  have hi : idx_main_v118 (idx_main_v119 (ix2 p j)) = ix1 p := eq_ix1 _
  have hb : idx_main_v122 (idx_main_v123 (ix2 p j)) = ix1 j := eq_ix1 _
  rw [val_main_v124_apply, val_main_v121_apply, val_main_v120_apply, aggC_read hp1, h_read hp1, val_main_v119_apply,
    val_main_v118_apply, hi, val_main_v117_apply, dinv_read, val_main_v123_apply, val_main_v122_apply, hb]
  simp only [Ideal.addf_def, Ideal.mulf_def]

-- Layer 2's sums over the paper–label edges are layer 1's, read at layer 1's outputs.
include hp hl hl1 in
theorem aggRev_read (p : Fin 100000) (k : Fin 128) :
    val_main_v134 (F := Ideal) x0 x1 x4 x5 x8 x9 x10 (ix2 p k) = aggRev paper label HL p k :=
  (aggRev_read_1P (x1 := val_main_v80 (F := Ideal) x0 x1 x4 x5 x8 x9 x10) paper label hp hl p k).trans
    (congrArg (aggRev paper label · p k) (funext₂ hl1))

include hp hl hl1 in
theorem revRel_read (p : Fin 100000) (j : Fin 64) :
    val_main_v135 (F := Ideal) x0 x1 x4 x5 x8 x9 x10 x19 (ix2 p j) = mm (aggRev paper label HL) (fun a b => x19 (ix2 a b)) p j := by
  rw [val_main_v135_apply]
  unfold mm
  refine Finset.sum_congr rfl fun k _ => ?_
  have el : lidx_main_v135 (ix2 p j) k = ix2 p k := eq_ix2 _
  have er : ridx_main_v135 (ix2 p j) k = ix2 k j := eq_ix2 _
  rw [el, er, aggRev_read hp hl hl1]

include hp1 in
theorem revRoot_read (p : Fin 100000) (j : Fin 64) :
    val_main_v139 (F := Ideal) x0 x1 x2 x3 x4 x5 x6 x7 x11 x12 x13 x21 (ix2 p j) = mm HP (fun a b => x21 (ix2 a b)) p j :=
  h_read (x14 := x21) hp1 p j

include hp hl hp1 hl1 in
theorem orev_read (p : Fin 100000) (j : Fin 64) :
    val_main_v140 (F := Ideal) x0 x1 x2 x3 x4 x5 x6 x7 x8 x9 x10 x11 x12 x13 x19 x20 x21 (ix2 p j)
      = prevR HP (aggRev paper label HL) (fun a b => x19 (ix2 a b)) (fun a b => x21 (ix2 a b)) (fun a => x20 (ix1 a)) p j := by
  have hb : idx_main_v136 (idx_main_v137 (ix2 p j)) = ix1 j := eq_ix1 _
  rw [val_main_v140_apply, val_main_v138_apply, revRel_read hp hl hl1, revRoot_read hp1,
    val_main_v137_apply, val_main_v136_apply, hb]
  unfold prevR
  simp only [Ideal.addf_def]

include hp hl hp1 hl1 in
theorem zp_read (p : Fin 100000) (j : Fin 64) :
    val_main_v143 (F := Ideal) x0 x1 x2 x3 x4 x5 x6 x7 x8 x9 x10 x11 x12 x13 x14 x15 x19 x20 x21 (ix2 p j)
      = paperOut false
          (aggCites (landOf (fun e => x3 (ix1 e))) (fun e => rowOf (x2 (ix1 e)))
            (normOf (fun e => x2 (ix1 e)) (fun e => x3 (ix1 e))) (mm HP (fun a b => x14 (ix2 a b))))
          (mm HP (fun a b => x14 (ix2 a b)))
          (fun q => dinvOf (fun e => x3 (ix1 e)) q * dinvOf (fun e => x3 (ix1 e)) q) (fun a => x15 (ix1 a))
          (prevR HP (aggRev paper label HL) (fun a b => x19 (ix2 a b)) (fun a b => x21 (ix2 a b)) (fun a => x20 (ix1 a)))
          p j := by
  rw [val_main_v143_apply, val_main_v141_apply, ocites_read hp1, orev_read hp hl hp1 hl1,
    val_main_v142_apply, val_main_cst_28_apply]
  unfold paperOut reluIf
  simp only [Ideal.addf_def, Ideal.mulf_def, Ideal.ofBits_def, Bool.false_eq_true, if_false]

include hp hl hp1 in
theorem aggLab_read (l : Fin 128) (k : Fin 128) :
    val_main_v153 (F := Ideal) x0 x1 x2 x3 x4 x5 x6 x7 x11 x12 x13 (ix2 l k) = aggLab paper label HP l k :=
  (aggLab_1L (x0 := val_main_v79 (F := Ideal) x0 x1 x2 x3 x4 x5 x6 x7 x11 x12 x13) paper label hp hl l k).trans
    (congrArg (aggLab paper label · l k) (funext₂ hp1))

include hp hl hp1 in
theorem isRel_read (p : Fin 128) (j : Fin 64) :
    val_main_v154 (F := Ideal) x0 x1 x2 x3 x4 x5 x6 x7 x11 x12 x13 x16 (ix2 p j) = mm (aggLab paper label HP) (fun a b => x16 (ix2 a b)) p j := by
  rw [val_main_v154_apply]
  unfold mm
  refine Finset.sum_congr rfl fun k _ => ?_
  have el : lidx_main_v154 (ix2 p j) k = ix2 p k := eq_ix2 _
  have er : ridx_main_v154 (ix2 p j) k = ix2 k j := eq_ix2 _
  rw [el, er, aggLab_read hp hl hp1]

include hl1 in
theorem isRoot_read (p : Fin 128) (j : Fin 64) :
    val_main_v158 (F := Ideal) x0 x1 x4 x5 x8 x9 x10 x18 (ix2 p j) = mm HL (fun a b => x18 (ix2 a b)) p j := by
  rw [val_main_v158_apply]
  unfold mm
  refine Finset.sum_congr rfl fun k _ => ?_
  have el : lidx_main_v158 (ix2 p j) k = ix2 p k := eq_ix2 _
  have er : ridx_main_v158 (ix2 p j) k = ix2 k j := eq_ix2 _
  rw [el, er, hl1]

include hp hl hp1 hl1 in
theorem zl_read (l : Fin 128) (j : Fin 64) :
    val_main_v159 (F := Ideal) x0 x1 x2 x3 x4 x5 x6 x7 x8 x9 x10 x11 x12 x13 x16 x17 x18 (ix2 l j)
      = labelOut false (aggLab paper label HP) HL (fun a b => x16 (ix2 a b)) (fun a b => x18 (ix2 a b))
          (fun a => x17 (ix1 a)) l j := by
  have hb : idx_main_v155 (idx_main_v156 (ix2 l j)) = ix1 j := eq_ix1 _
  rw [val_main_v159_apply, val_main_v157_apply, isRel_read hp hl hp1, isRoot_read hl1,
    val_main_v156_apply, val_main_v155_apply, hb]
  unfold labelOut reluIf
  simp only [Ideal.addf_def, Bool.false_eq_true, if_false]

end Layer2

theorem ref_zp (m : (ℓ : Loc nD τ sig) → Buf (Elt Ideal) ℓ) (c : Dev nD)
    (paper : Fin 100000 → Fin 100000) (label : Fin 100000 → Fin 128)
    (hp : ∀ e, ((m ((c.tc : Thread nD τ).loc main_arg4) : S100000.Idx → BitVec 32) (ix1 e)).toInt = ((paper e).val : Int))
    (hl : ∀ e, ((m ((c.tc : Thread nD τ).loc main_arg5) : S100000.Idx → BitVec 32) (ix1 e)).toInt = ((label e).val : Int))
    (hp1 : ∀ p k, (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) : S100000x128.Idx → EReal) (ix2 p k)
      = (netOf m c paper label).hpR p k)
    (hl1 : ∀ l k, (val_main_v80 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) : S128x128.Idx → EReal) (ix2 l k)
      = (netOf m c paper label).hlR l k)
    (p : Fin 100000) (j : Fin 64) :
    (Value.res_out0 m c : S100000x64.Idx → EReal) (ix2 p j) = (netOf m c paper label).zpR p j := by
  show (Value.res_main_v143 m c : S100000x64.Idx → EReal) (ix2 p j) = _
  rw [val_main_v143_eq]
  exact zp_read hp hl hp1 hl1 p j

theorem ref_zl (m : (ℓ : Loc nD τ sig) → Buf (Elt Ideal) ℓ) (c : Dev nD)
    (paper : Fin 100000 → Fin 100000) (label : Fin 100000 → Fin 128)
    (hp : ∀ e, ((m ((c.tc : Thread nD τ).loc main_arg4) : S100000.Idx → BitVec 32) (ix1 e)).toInt = ((paper e).val : Int))
    (hl : ∀ e, ((m ((c.tc : Thread nD τ).loc main_arg5) : S100000.Idx → BitVec 32) (ix1 e)).toInt = ((label e).val : Int))
    (hp1 : ∀ p k, (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg11)) (m ((c.tc : Thread nD τ).loc main_arg12)) (m ((c.tc : Thread nD τ).loc main_arg13)) : S100000x128.Idx → EReal) (ix2 p k)
      = (netOf m c paper label).hpR p k)
    (hl1 : ∀ l k, (val_main_v80 (F := Ideal) (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg8)) (m ((c.tc : Thread nD τ).loc main_arg9)) (m ((c.tc : Thread nD τ).loc main_arg10)) : S128x128.Idx → EReal) (ix2 l k)
      = (netOf m c paper label).hlR l k)
    (l : Fin 128) (j : Fin 64) :
    (Value.res_out1 m c : S128x64.Idx → EReal) (ix2 l j) = (netOf m c paper label).zlR l j := by
  show (Value.res_main_v159 m c : S128x64.Idx → EReal) (ix2 l j) = _
  rw [val_main_v159_eq]
  exact zl_read hp hl hp1 hl1 l j

end Cert.ReferenceIdeal.RefVal

end
-- ==== Proof.NetEq.lean ====
import proofs.«430514_j6622839570447_1_alg».proof.Proof.Algebra

noncomputable section

namespace Cert.Gnn

theorem mmT_countMat_table (paper : Fin EI → Fin NP) (label : Fin EI → Fin NL) (xp : Fin NP → Fin 128 → EReal) :
    mmT (countMat paper label) xp = aggLab paper label xp := by
  funext l k
  exact mmT_countMat paper label xp l k

theorem prevK_eq_prevR_table {d : Nat} (paper : Fin EI → Fin NP) (label : Fin EI → Fin NL)
    (xp : Fin NP → Fin 128 → EReal) (xl : Fin NL → Fin 128 → EReal)
    (Wrel Wroot : Fin 128 → Fin d → EReal) (brel : Fin d → EReal)
    (hxl : ∀ l k, IsReal (xl l k)) (hW : ∀ k j, IsReal (Wrel k j)) :
    prevK xp (countMat paper label) (mm xl Wrel) Wroot brel
      = prevR xp (aggRev paper label xl) Wrel Wroot brel := by
  funext p j
  exact prevK_eq_prevR paper label xp xl Wrel Wroot brel hxl hW p j

namespace Net

variable (I : Net)

theorem hlK_eq_hlR : I.hlK = I.hlR := by
  unfold hlK hlR
  rw [mmT_countMat_table]

theorem hpK_eq_hpR (hF : I.Finite) : I.hpK = I.hpR := by
  unfold hpK hpR
  rw [prevK_eq_prevR_table I.paper I.label I.xp I.xl I.revrelW1 I.revrootW1 I.revrelb1 hF.xl hF.revrelW1]

theorem hlR_isReal (hF : I.Finite) (l : Fin NL) (k : Fin 128) : IsReal (I.hlR l k) := by
  unfold hlR
  exact isReal_labelOut true (aggLab I.paper I.label I.xp) I.xl I.isrelW1 I.isrootW1 I.isrelb1
    (isReal_aggLab I.paper I.label I.xp hF.xp) hF.xl hF.isrelW1 hF.isrootW1 hF.isrelb1 l k

theorem zpK_eq_zpR (hF : I.Finite) : I.zpK = I.zpR := by
  unfold zpK zpR
  rw [hpK_eq_hpR I hF, hlK_eq_hlR I,
    prevK_eq_prevR_table I.paper I.label I.hpR I.hlR I.revrelW2 I.revrootW2 I.revrelb2
      (hlR_isReal I hF) hF.revrelW2]

theorem zlK_eq_zlR (hF : I.Finite) : I.zlK = I.zlR := by
  unfold zlK zlR
  rw [hpK_eq_hpR I hF, hlK_eq_hlR I, mmT_countMat_table]

end Net

end Cert.Gnn

end
-- ==== Proof.PreDecode.lean ====
import proofs.«430514_j6622839570447_1_alg».proof.Pre_finite_inputs
import proofs.«430514_j6622839570447_1_alg».proof.Proof.Spec
import Idealize.ShloMosaic.Lib.ReduceAll
import Idealize.ShloMosaic.Lib.StableHlo.Predicate
import Idealize.ShloMosaic.Lib.ValueIdx
import Idealize.ShloMosaic.Lib.Affine
import Idealize.ShloMosaic.PureOps.Ideal

noncomputable section

namespace Cert.Pre_finite_inputs.Decode

open Idealize.ShloMosaic Idealize.ShloMosaic.ValueIdx Cert.Pre_finite_inputs Cert.Gnn

instance : Subsingleton S_.Idx := ⟨fun a b => funext fun d => d.elim0⟩

theorem isReal_of_abs_lt (x : EReal)
    (h : FloatOps.cmpf (F := Ideal) (φ := .f32) .olt (FloatOps.hostAbsf x) (FloatOps.ofBits .f32 0x7F800000#32) = 1#1) : IsReal x := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => exact absurd h (by simp [Ideal.cmp])
  | top => exact absurd h (by simp [Ideal.cmp])
  | coe r => exact ⟨r, rfl⟩

theorem real_of_all {s : Shape} {axes : List (Fin s.rank)} (a : FVec Ideal s .f32)
    (hb : S_.BroadcastsInDim s (![] : Fin 0 → Fin s.rank)) (hr : s.ReducesTo axes S_) (h0 : 0 < S_.numel)
    (e : Host.reduce IntOp.andi
          (cmpf .olt (Host.absf a) (broadcastInDim s ![] hb (constant (F := Ideal) S_ .f32 0x7F800000#32)))
          (constantI S_ 1 1#1) hr h0 ix0 = 1#1) (i : s.Idx) : IsReal (a i) :=
  isReal_of_abs_lt (a i) (Host.reduce_andi_all _ _ hr h0 ix0 e i)

theorem range_of_all {s : Shape} {axes : List (Fin s.rank)} (a : IVec s 32) (n : Nat) (hn : n < 2 ^ 31)
    (hb : S_.BroadcastsInDim s (![] : Fin 0 → Fin s.rank)) (hr : s.ReducesTo axes S_) (h0 : 0 < S_.numel)
    (e : Host.reduce IntOp.andi
          (andi (cmpi .sge a (broadcastInDim s ![] hb (constantI S_ 32 0#32)))
                (cmpi .slt a (broadcastInDim s ![] hb (constantI S_ 32 (BitVec.ofNat 32 n)))))
          (constantI S_ 1 1#1) hr h0 ix0 = 1#1) (i : s.Idx) : 0 ≤ (a i).toInt ∧ (a i).toInt < n := by
  have hi := Host.reduce_andi_all _ _ hr h0 ix0 e i
  change IntOp.andi (IntOp.cmpi .sge (a i) 0#32) (IntOp.cmpi .slt (a i) (BitVec.ofNat 32 n)) = 1#1 at hi
  rwa [IntOp.andi_eq_one, IntOp.cmpi_sge, IntOp.cmpi_slt, show (0#32 : BitVec 32).toInt = 0 by decide,
    StableHlo.Predicate.toInt_ofNat_small n hn] at hi

variable [Facts]

variable {a0 : FVec Ideal S100000x128 .f32} {a1 : FVec Ideal S128x128 .f32} {a2 : IVec S1600000 32} {a3 : IVec S1600000 32} {a4 : IVec S100000 32} {a5 : IVec S100000 32} {a6 : FVec Ideal S128x128 .f32} {a7 : FVec Ideal S128 .f32} {a8 : FVec Ideal S128x128 .f32} {a9 : FVec Ideal S128 .f32} {a10 : FVec Ideal S128x128 .f32} {a11 : FVec Ideal S128x128 .f32} {a12 : FVec Ideal S128 .f32} {a13 : FVec Ideal S128x128 .f32} {a14 : FVec Ideal S128x64 .f32} {a15 : FVec Ideal S64 .f32} {a16 : FVec Ideal S128x64 .f32} {a17 : FVec Ideal S64 .f32} {a18 : FVec Ideal S128x64 .f32} {a19 : FVec Ideal S128x64 .f32} {a20 : FVec Ideal S64 .f32} {a21 : FVec Ideal S128x64 .f32}

theorem and_ix0 (x y : IVec S_ 1) : andi x y ix0 = 1#1 ↔ x ix0 = 1#1 ∧ y ix0 = 1#1 := IntOp.andi_eq_one

-- The precondition is a conjunction of one finiteness test per float argument and one range test per edge list: keep the conjuncts in use.
theorem decode (h : fn (F := Ideal) a0 a1 a2 a3 a4 a5 a6 a7 a8 a9 a10 a11 a12 a13 a14 a15 a16 a17 a18 a19 a20 a21 = fun _ => 1#1) :
    ((∀ i, IsReal (a0 i)) ∧ (∀ i, IsReal (a1 i)) ∧ (∀ i, IsReal (a8 i)) ∧ (∀ i, IsReal (a9 i)) ∧ (∀ i, IsReal (a10 i))
      ∧ (∀ i, IsReal (a11 i)) ∧ ∀ i, IsReal (a19 i))
    ∧ (∀ i, 0 ≤ (a4 i).toInt ∧ (a4 i).toInt < 100000) ∧ ∀ i, 0 ≤ (a5 i).toInt ∧ (a5 i).toInt < 128 := by
  have e := congrFun h ix0
  dsimp only [fn, fn_part1, fn_part2, fn_part3, fn_part4, fn_part5, fn_part6] at e
  simp only [and_ix0] at e
  obtain ⟨⟨⟨⟨⟨⟨⟨⟨⟨⟨⟨⟨⟨⟨⟨⟨⟨⟨⟨e0, e1⟩, -⟩, -⟩, e8⟩, e9⟩, e10⟩, e11⟩, -⟩, -⟩, -⟩, -⟩, -⟩, -⟩, -⟩, e19⟩, -⟩, -⟩, g4⟩, g5⟩ := e
  exact ⟨⟨real_of_all a0 _ _ _ e0, real_of_all a1 _ _ _ e1, real_of_all a8 _ _ _ e8, real_of_all a9 _ _ _ e9,
    real_of_all a10 _ _ _ e10, real_of_all a11 _ _ _ e11, real_of_all a19 _ _ _ e19⟩,
    range_of_all a4 100000 (by norm_num) _ _ _ g4, range_of_all a5 128 (by norm_num) _ _ _ g5⟩

end Cert.Pre_finite_inputs.Decode

end
-- ==== Proof.ClaimsPre.lean ====
import proofs.«430514_j6622839570447_1_alg».proof.Defs
import proofs.«430514_j6622839570447_1_alg».proof.Proof.Gen.Pre_finite_inputs
import proofs.«430514_j6622839570447_1_alg».proof.Proof.KerNet
import proofs.«430514_j6622839570447_1_alg».proof.Proof.PreDecode

noncomputable section

namespace Cert.Proof.Claims

open Idealize.ShloMosaic Idealize.ShloMosaic.TcCoe Idealize.ShloMosaic.ValueIdx Idealize.SL.Sem
open Cert.Pre_finite_inputs.Decode
open Cert.KernelIdeal (nD τ sig S100000 main_arg4 main_arg5)

section Edges

variable (a4 a5 : S100000.Idx → BitVec 32)

def paperOf (h4 : ∀ e : Fin 100000, 0 ≤ (a4 (ix1 e)).toInt ∧ (a4 (ix1 e)).toInt < 100000) (e : Fin 100000) : Fin 100000 :=
  ⟨(a4 (ix1 e)).toInt.toNat, by have := h4 e; omega⟩

def labelOf (h5 : ∀ e : Fin 100000, 0 ≤ (a5 (ix1 e)).toInt ∧ (a5 (ix1 e)).toInt < 128) (e : Fin 100000) : Fin 128 :=
  ⟨(a5 (ix1 e)).toInt.toNat, by have := h5 e; omega⟩

theorem paperOf_spec (h4) (e : Fin 100000) : (a4 (ix1 e)).toInt = ((paperOf a4 h4 e).val : Int) := by
  have := h4 e; simp only [paperOf]; omega

theorem labelOf_spec (h5) (e : Fin 100000) : (a5 (ix1 e)).toInt = ((labelOf a5 h5 e).val : Int) := by
  have := h5 e; simp only [labelOf]; omega

end Edges

variable (m : (ℓ : Loc nD τ sig) → Buf (Elt Ideal) ℓ) (hpre : Cert.Pre_KernelIdeal m) (c : Dev nD)
include hpre

theorem range4 : ∀ e : Fin 100000,
    0 ≤ ((m ((c.tc : Thread nD τ).loc main_arg4) : S100000.Idx → BitVec 32) (ix1 e)).toInt
    ∧ ((m ((c.tc : Thread nD τ).loc main_arg4) : S100000.Idx → BitVec 32) (ix1 e)).toInt < 100000 :=
  fun e => (decode (hpre c)).2.1 (ix1 e)

theorem range5 : ∀ e : Fin 100000,
    0 ≤ ((m ((c.tc : Thread nD τ).loc main_arg5) : S100000.Idx → BitVec 32) (ix1 e)).toInt
    ∧ ((m ((c.tc : Thread nD τ).loc main_arg5) : S100000.Idx → BitVec 32) (ix1 e)).toInt < 128 :=
  fun e => (decode (hpre c)).2.2 (ix1 e)

theorem ker_finite (paper : Fin 100000 → Fin 100000) (label : Fin 100000 → Fin 128) :
    (Cert.KernelIdeal.KerVal.netOf m c paper label).Finite :=
  have ⟨r0, r1, r8, r9, r10, r11, r19⟩ := (decode (hpre c)).1
  ⟨fun p k => r0 (ix2 p k), fun l k => r1 (ix2 l k), fun k j => r8 (ix2 k j), fun j => r9 (ix1 j),
    fun k j => r10 (ix2 k j), fun k j => r11 (ix2 k j), fun k j => r19 (ix2 k j)⟩

end Cert.Proof.Claims

end
-- ==== Proof.Claims.lean ====
import proofs.«430514_j6622839570447_1_alg».proof.Defs
import proofs.«430514_j6622839570447_1_alg».proof.Proof.Gen.Kernel
import proofs.«430514_j6622839570447_1_alg».proof.Proof.Gen.KernelIdeal
import proofs.«430514_j6622839570447_1_alg».proof.Proof.Gen.ReferenceIdeal
import proofs.«430514_j6622839570447_1_alg».proof.Proof.Gen.Pre_finite_inputs
import proofs.«430514_j6622839570447_1_alg».proof.Proof.Gen.ReferenceIdeal.Run
import proofs.«430514_j6622839570447_1_alg».proof.Proof.WordLevel
import proofs.«430514_j6622839570447_1_alg».proof.Proof.KI.Run
import proofs.«430514_j6622839570447_1_alg».proof.Proof.KChain
import proofs.«430514_j6622839570447_1_alg».proof.Proof.RefVal1P
import proofs.«430514_j6622839570447_1_alg».proof.Proof.RefVal1L
import proofs.«430514_j6622839570447_1_alg».proof.Proof.RefVal2
import proofs.«430514_j6622839570447_1_alg».proof.Proof.NetEq
import proofs.«430514_j6622839570447_1_alg».proof.Proof.ClaimsPre

noncomputable section

namespace Cert.Proof.Claims

open Idealize.ShloMosaic Idealize.ShloMosaic.TcCoe Idealize.ShloMosaic.ValueIdx Idealize.SL.Sem

theorem frame_ki : Cert.frame_KernelIdeal := fun m ρ _ => Cert.KernelIdeal.Hand.frame m ρ

theorem frame_r : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' hpre hag
  refine ⟨fun c => Cert.KernelIdeal.Hand.W12 m c (Proc.devRef .tc Cert.KernelIdeal.main_v80),
    fun c => Cert.KernelIdeal.Hand.W12 m c (Proc.devRef .tc Cert.KernelIdeal.main_v82), ?_, ?_⟩
  · refine (θ_run Cert.KernelIdeal.defs _ _).mono (fun r h c => ?_) (Cert.KernelIdeal.Hand.run_all (F := Ideal) m ρ)
    exact ⟨h c _ (Cert.KernelIdeal.Hand.mem_uc Cert.KernelIdeal.main_v80 (by decide)), h c _ (Cert.KernelIdeal.Hand.mem_uc Cert.KernelIdeal.main_v82 (by decide)),
      by and_intros <;> exact Cert.KernelIdeal.Hand.kept m (h c) _ (by decide)⟩
  · refine (θ_run Cert.ReferenceIdeal.defs _ _).mono (fun r h c => ⟨(h c).1.trans ?_, (h c).2.1.trans ?_, (h c).2.2⟩)
      (Cert.ReferenceIdeal.Value.run (F := Ideal) m' ρ')
    all_goals
      have h4 := range4 m hpre c
      have h5 := range5 m hpre c
      have hpK := paperOf_spec _ h4
      have hlK := labelOf_spec _ h5
      obtain ⟨g0, g1, g2, g3, g4, g5, g6, g7, g8, g9, g10, g11, g12, g13, g14, g15, g16, g17, g18, g19, g20, g21⟩ := hag c
      have hpR : ∀ e, ((m' ((c.tc : Thread Cert.ReferenceIdeal.nD Cert.ReferenceIdeal.τ).loc Cert.ReferenceIdeal.main_arg4) : Cert.ReferenceIdeal.S100000.Idx → BitVec 32) (ix1 e)).toInt
          = ((paperOf _ h4 e).val : Int) := by rw [g4]; exact hpK
      have hlR : ∀ e, ((m' ((c.tc : Thread Cert.ReferenceIdeal.nD Cert.ReferenceIdeal.τ).loc Cert.ReferenceIdeal.main_arg5) : Cert.ReferenceIdeal.S100000.Idx → BitVec 32) (ix1 e)).toInt
          = ((labelOf _ h5 e).val : Int) := by rw [g5]; exact hlK
      have hnet : Cert.ReferenceIdeal.RefVal.netOf m' c (paperOf _ h4) (labelOf _ h5) = Cert.KernelIdeal.KerVal.netOf m c (paperOf _ h4) (labelOf _ h5) := by
        unfold Cert.ReferenceIdeal.RefVal.netOf Cert.KernelIdeal.KerVal.netOf
        simp only [g0, g1, g2, g3, g6, g7, g8, g9, g10, g11, g12, g13, g14, g15, g16, g17, g18, g19, g20, g21]
      have hfin := ker_finite m hpre c (paperOf _ h4) (labelOf _ h5)
    · funext i
      obtain ⟨p, j, rfl⟩ : ∃ (p : Fin 100000) (j : Fin 64), i = ix2 p j := ⟨i 0, i 1, eq_ix2 i⟩
      refine (Cert.ReferenceIdeal.RefVal.ref_zp m' c _ _ hpR hlR (Cert.ReferenceIdeal.RefVal.ref_hp_1P m' c _ _ hpR hlR) (Cert.ReferenceIdeal.RefVal.ref_hl m' c _ _ hpR hlR) p j).trans ?_
      rw [hnet, ← Cert.Gnn.Net.zpK_eq_zpR _ hfin]
      exact (Cert.KernelIdeal.Hand.chain_zp m c _ _ hpK hlK p j).symm
    · funext i
      obtain ⟨l, j, rfl⟩ : ∃ (l : Fin 128) (j : Fin 64), i = ix2 l j := ⟨i 0, i 1, eq_ix2 i⟩
      refine (Cert.ReferenceIdeal.RefVal.ref_zl m' c _ _ hpR hlR (Cert.ReferenceIdeal.RefVal.ref_hp_1P m' c _ _ hpR hlR) (Cert.ReferenceIdeal.RefVal.ref_hl m' c _ _ hpR hlR) l j).trans ?_
      rw [hnet, ← Cert.Gnn.Net.zlK_eq_zlR _ hfin]
      exact (Cert.KernelIdeal.Hand.chain_zl m c _ _ hpK hlK l j).symm

end Cert.Proof.Claims

end
-- ==== Proof.lean ====
import proofs.«430514_j6622839570447_1_alg».proof.Proof.Claims

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_r, Claims.preserves, Claims.algebraic⟩

end Cert.Proof

end
